-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S128x64 : Shape := ⟨2, ![128, 64]⟩
abbrev S128 : Shape := ⟨1, ![128]⟩
abbrev S2016x128 : Shape := ⟨2, ![2016, 128]⟩
abbrev S2016 : Shape := ⟨1, ![2016]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S2016x128 : S_.BroadcastsInDim S2016x128 (![] : Fin 0 → Fin S2016x128.rank)
  reducesTo_S2016x128_S_d0_1 : S2016x128.ReducesTo [0, 1] S_
  bcast_S_S2016 : S_.BroadcastsInDim S2016 (![] : Fin 0 → Fin S2016.rank)
  reducesTo_S2016_S_d0 : S2016.ReducesTo [0] S_

variable [Facts]

def fn_part1 {F : FTy → Type} [FloatOps F] (main_arg4 : FVec F S2016 .f32) (main_v13 : IVec S_ 1) (main_v16 : IVec S2016x128 1) : IVec S_ 1 :=
  let main_c_5 : IVec S_ 1 := constantI S_ 1 1#1
  let main_v17 : IVec S_ 1 := (fun x v => Host.reduce IntOp.andi x v reducesTo_S2016x128_S_d0_1 h_S_) main_v16 main_c_5
  let main_v18 : IVec S_ 1 := andi main_v13 main_v17
  let main_v19 : FVec F S2016 .f32 := Host.absf main_arg4
  let main_cst_6 : FVec F S_ .f32 := constant S_ .f32 0x7F800000#32
  let main_v20 : FVec F S2016 .f32 := broadcastInDim S2016 ![] bcast_S_S2016 main_cst_6
  let main_v21 : IVec S2016 1 := cmpf .olt main_v19 main_v20
  let main_c_7 : IVec S_ 1 := constantI S_ 1 1#1
  let main_v22 : IVec S_ 1 := (fun x v => Host.reduce IntOp.andi x v reducesTo_S2016_S_d0 h_S_) main_v21 main_c_7
  let main_v23 : IVec S_ 1 := andi main_v18 main_v22
  main_v23

def fn {F : FTy → Type} [FloatOps F] (main_arg0 : FVec F S16384x64 .f32) (main_arg1 : FVec F S128x64 .f32) (main_arg2 : FVec F S128 .f32) (main_arg3 : FVec F S2016x128 .f32) (main_arg4 : FVec F S2016 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2016x128 .f32 := Host.absf main_arg3
  let main_cst_4 : FVec F S_ .f32 := constant S_ .f32 0x7F800000#32
  let main_v15 : FVec F S2016x128 .f32 := broadcastInDim S2016x128 ![] bcast_S_S2016x128 main_cst_4
  let main_v16 : IVec S2016x128 1 := cmpf .olt main_v14 main_v15
  fn_part1 (F := F) main_arg4 main_v13 main_v16
-- ==== Kernel.lean ====
abbrev S16384x64 : Shape := ⟨2, ![16384, 64]⟩
abbrev S128x64 : Shape := ⟨2, ![128, 64]⟩
abbrev S128 : Shape := ⟨1, ![128]⟩
abbrev S2016x128 : Shape := ⟨2, ![2016, 128]⟩
abbrev S2016 : Shape := ⟨1, ![2016]⟩
abbrev S64x128 : Shape := ⟨2, ![64, 128]⟩
abbrev S128x2016 : Shape := ⟨2, ![128, 2016]⟩
abbrev S1x128 : Shape := ⟨2, ![1, 128]⟩
abbrev S1x2016 : Shape := ⟨2, ![1, 2016]⟩
abbrev S16384x64x64 : Shape := ⟨3, ![16384, 64, 64]⟩
abbrev S256x64 : Shape := ⟨2, ![256, 64]⟩
abbrev S256x64x64 : Shape := ⟨3, ![256, 64, 64]⟩
abbrev S256x128 : Shape := ⟨2, ![256, 128]⟩
abbrev S256x2016 : Shape := ⟨2, ![256, 2016]⟩
abbrev S256x63 : Shape := ⟨2, ![256, 63]⟩
abbrev S256x1x63 : Shape := ⟨3, ![256, 1, 63]⟩
abbrev S256x63x1 : Shape := ⟨3, ![256, 63, 1]⟩
abbrev S256x62 : Shape := ⟨2, ![256, 62]⟩
abbrev S256x1x62 : Shape := ⟨3, ![256, 1, 62]⟩
abbrev S256x62x1 : Shape := ⟨3, ![256, 62, 1]⟩
abbrev S256x61 : Shape := ⟨2, ![256, 61]⟩
abbrev S256x1x61 : Shape := ⟨3, ![256, 1, 61]⟩
abbrev S256x61x1 : Shape := ⟨3, ![256, 61, 1]⟩
abbrev S256x60 : Shape := ⟨2, ![256, 60]⟩
abbrev S256x1x60 : Shape := ⟨3, ![256, 1, 60]⟩
abbrev S256x60x1 : Shape := ⟨3, ![256, 60, 1]⟩
abbrev S256x59 : Shape := ⟨2, ![256, 59]⟩
abbrev S256x1x59 : Shape := ⟨3, ![256, 1, 59]⟩
abbrev S256x59x1 : Shape := ⟨3, ![256, 59, 1]⟩
abbrev S256x58 : Shape := ⟨2, ![256, 58]⟩
abbrev S256x1x58 : Shape := ⟨3, ![256, 1, 58]⟩
abbrev S256x58x1 : Shape := ⟨3, ![256, 58, 1]⟩
abbrev S256x57 : Shape := ⟨2, ![256, 57]⟩
abbrev S256x1x57 : Shape := ⟨3, ![256, 1, 57]⟩
abbrev S256x57x1 : Shape := ⟨3, ![256, 57, 1]⟩
abbrev S256x56 : Shape := ⟨2, ![256, 56]⟩
abbrev S256x1x56 : Shape := ⟨3, ![256, 1, 56]⟩
abbrev S256x56x1 : Shape := ⟨3, ![256, 56, 1]⟩
abbrev S256x55 : Shape := ⟨2, ![256, 55]⟩
abbrev S256x1x55 : Shape := ⟨3, ![256, 1, 55]⟩
abbrev S256x55x1 : Shape := ⟨3, ![256, 55, 1]⟩
abbrev S256x54 : Shape := ⟨2, ![256, 54]⟩
abbrev S256x1x54 : Shape := ⟨3, ![256, 1, 54]⟩
abbrev S256x54x1 : Shape := ⟨3, ![256, 54, 1]⟩
abbrev S256x53 : Shape := ⟨2, ![256, 53]⟩
abbrev S256x1x53 : Shape := ⟨3, ![256, 1, 53]⟩
abbrev S256x53x1 : Shape := ⟨3, ![256, 53, 1]⟩
abbrev S256x52 : Shape := ⟨2, ![256, 52]⟩
abbrev S256x1x52 : Shape := ⟨3, ![256, 1, 52]⟩
abbrev S256x52x1 : Shape := ⟨3, ![256, 52, 1]⟩
abbrev S256x51 : Shape := ⟨2, ![256, 51]⟩
abbrev S256x1x51 : Shape := ⟨3, ![256, 1, 51]⟩
abbrev S256x51x1 : Shape := ⟨3, ![256, 51, 1]⟩
abbrev S256x50 : Shape := ⟨2, ![256, 50]⟩
abbrev S256x1x50 : Shape := ⟨3, ![256, 1, 50]⟩
abbrev S256x50x1 : Shape := ⟨3, ![256, 50, 1]⟩
abbrev S256x49 : Shape := ⟨2, ![256, 49]⟩
abbrev S256x1x49 : Shape := ⟨3, ![256, 1, 49]⟩
abbrev S256x49x1 : Shape := ⟨3, ![256, 49, 1]⟩
abbrev S256x48 : Shape := ⟨2, ![256, 48]⟩
abbrev S256x1x48 : Shape := ⟨3, ![256, 1, 48]⟩
abbrev S256x48x1 : Shape := ⟨3, ![256, 48, 1]⟩
abbrev S256x47 : Shape := ⟨2, ![256, 47]⟩
abbrev S256x1x47 : Shape := ⟨3, ![256, 1, 47]⟩
abbrev S256x47x1 : Shape := ⟨3, ![256, 47, 1]⟩
abbrev S256x46 : Shape := ⟨2, ![256, 46]⟩
abbrev S256x1x46 : Shape := ⟨3, ![256, 1, 46]⟩
abbrev S256x46x1 : Shape := ⟨3, ![256, 46, 1]⟩
abbrev S256x45 : Shape := ⟨2, ![256, 45]⟩
abbrev S256x1x45 : Shape := ⟨3, ![256, 1, 45]⟩
abbrev S256x45x1 : Shape := ⟨3, ![256, 45, 1]⟩
abbrev S256x44 : Shape := ⟨2, ![256, 44]⟩
abbrev S256x1x44 : Shape := ⟨3, ![256, 1, 44]⟩
abbrev S256x44x1 : Shape := ⟨3, ![256, 44, 1]⟩
abbrev S256x43 : Shape := ⟨2, ![256, 43]⟩
abbrev S256x1x43 : Shape := ⟨3, ![256, 1, 43]⟩
abbrev S256x43x1 : Shape := ⟨3, ![256, 43, 1]⟩
abbrev S256x42 : Shape := ⟨2, ![256, 42]⟩
abbrev S256x1x42 : Shape := ⟨3, ![256, 1, 42]⟩
abbrev S256x42x1 : Shape := ⟨3, ![256, 42, 1]⟩
abbrev S256x41 : Shape := ⟨2, ![256, 41]⟩
abbrev S256x1x41 : Shape := ⟨3, ![256, 1, 41]⟩
abbrev S256x41x1 : Shape := ⟨3, ![256, 41, 1]⟩
abbrev S256x40 : Shape := ⟨2, ![256, 40]⟩
abbrev S256x1x40 : Shape := ⟨3, ![256, 1, 40]⟩
abbrev S256x40x1 : Shape := ⟨3, ![256, 40, 1]⟩
abbrev S256x39 : Shape := ⟨2, ![256, 39]⟩
abbrev S256x1x39 : Shape := ⟨3, ![256, 1, 39]⟩
abbrev S256x39x1 : Shape := ⟨3, ![256, 39, 1]⟩
abbrev S256x38 : Shape := ⟨2, ![256, 38]⟩
abbrev S256x1x38 : Shape := ⟨3, ![256, 1, 38]⟩
abbrev S256x38x1 : Shape := ⟨3, ![256, 38, 1]⟩
abbrev S256x37 : Shape := ⟨2, ![256, 37]⟩
abbrev S256x1x37 : Shape := ⟨3, ![256, 1, 37]⟩
abbrev S256x37x1 : Shape := ⟨3, ![256, 37, 1]⟩
abbrev S256x36 : Shape := ⟨2, ![256, 36]⟩
abbrev S256x1x36 : Shape := ⟨3, ![256, 1, 36]⟩
abbrev S256x36x1 : Shape := ⟨3, ![256, 36, 1]⟩
abbrev S256x35 : Shape := ⟨2, ![256, 35]⟩
abbrev S256x1x35 : Shape := ⟨3, ![256, 1, 35]⟩
abbrev S256x35x1 : Shape := ⟨3, ![256, 35, 1]⟩
abbrev S256x34 : Shape := ⟨2, ![256, 34]⟩
abbrev S256x1x34 : Shape := ⟨3, ![256, 1, 34]⟩
abbrev S256x34x1 : Shape := ⟨3, ![256, 34, 1]⟩
abbrev S256x33 : Shape := ⟨2, ![256, 33]⟩
abbrev S256x1x33 : Shape := ⟨3, ![256, 1, 33]⟩
abbrev S256x33x1 : Shape := ⟨3, ![256, 33, 1]⟩
abbrev S256x32 : Shape := ⟨2, ![256, 32]⟩
abbrev S256x1x32 : Shape := ⟨3, ![256, 1, 32]⟩
abbrev S256x32x1 : Shape := ⟨3, ![256, 32, 1]⟩
abbrev S256x31 : Shape := ⟨2, ![256, 31]⟩
abbrev S256x1x31 : Shape := ⟨3, ![256, 1, 31]⟩
abbrev S256x31x1 : Shape := ⟨3, ![256, 31, 1]⟩
abbrev S256x30 : Shape := ⟨2, ![256, 30]⟩
abbrev S256x1x30 : Shape := ⟨3, ![256, 1, 30]⟩
abbrev S256x30x1 : Shape := ⟨3, ![256, 30, 1]⟩
abbrev S256x29 : Shape := ⟨2, ![256, 29]⟩
abbrev S256x1x29 : Shape := ⟨3, ![256, 1, 29]⟩
abbrev S256x29x1 : Shape := ⟨3, ![256, 29, 1]⟩
abbrev S256x28 : Shape := ⟨2, ![256, 28]⟩
abbrev S256x1x28 : Shape := ⟨3, ![256, 1, 28]⟩
abbrev S256x28x1 : Shape := ⟨3, ![256, 28, 1]⟩
abbrev S256x27 : Shape := ⟨2, ![256, 27]⟩
abbrev S256x1x27 : Shape := ⟨3, ![256, 1, 27]⟩
abbrev S256x27x1 : Shape := ⟨3, ![256, 27, 1]⟩
abbrev S256x26 : Shape := ⟨2, ![256, 26]⟩
abbrev S256x1x26 : Shape := ⟨3, ![256, 1, 26]⟩
abbrev S256x26x1 : Shape := ⟨3, ![256, 26, 1]⟩
abbrev S256x25 : Shape := ⟨2, ![256, 25]⟩
abbrev S256x1x25 : Shape := ⟨3, ![256, 1, 25]⟩
abbrev S256x25x1 : Shape := ⟨3, ![256, 25, 1]⟩
abbrev S256x24 : Shape := ⟨2, ![256, 24]⟩
abbrev S256x1x24 : Shape := ⟨3, ![256, 1, 24]⟩
abbrev S256x24x1 : Shape := ⟨3, ![256, 24, 1]⟩
abbrev S256x23 : Shape := ⟨2, ![256, 23]⟩
abbrev S256x1x23 : Shape := ⟨3, ![256, 1, 23]⟩
abbrev S256x23x1 : Shape := ⟨3, ![256, 23, 1]⟩
abbrev S256x22 : Shape := ⟨2, ![256, 22]⟩
abbrev S256x1x22 : Shape := ⟨3, ![256, 1, 22]⟩
abbrev S256x22x1 : Shape := ⟨3, ![256, 22, 1]⟩
abbrev S256x21 : Shape := ⟨2, ![256, 21]⟩
abbrev S256x1x21 : Shape := ⟨3, ![256, 1, 21]⟩
abbrev S256x21x1 : Shape := ⟨3, ![256, 21, 1]⟩
abbrev S256x20 : Shape := ⟨2, ![256, 20]⟩
abbrev S256x1x20 : Shape := ⟨3, ![256, 1, 20]⟩
abbrev S256x20x1 : Shape := ⟨3, ![256, 20, 1]⟩
abbrev S256x19 : Shape := ⟨2, ![256, 19]⟩
abbrev S256x1x19 : Shape := ⟨3, ![256, 1, 19]⟩
abbrev S256x19x1 : Shape := ⟨3, ![256, 19, 1]⟩
abbrev S256x18 : Shape := ⟨2, ![256, 18]⟩
abbrev S256x1x18 : Shape := ⟨3, ![256, 1, 18]⟩
abbrev S256x18x1 : Shape := ⟨3, ![256, 18, 1]⟩
abbrev S256x17 : Shape := ⟨2, ![256, 17]⟩
abbrev S256x1x17 : Shape := ⟨3, ![256, 1, 17]⟩
abbrev S256x17x1 : Shape := ⟨3, ![256, 17, 1]⟩
abbrev S256x16 : Shape := ⟨2, ![256, 16]⟩
abbrev S256x1x16 : Shape := ⟨3, ![256, 1, 16]⟩
abbrev S256x16x1 : Shape := ⟨3, ![256, 16, 1]⟩
abbrev S256x15 : Shape := ⟨2, ![256, 15]⟩
abbrev S256x1x15 : Shape := ⟨3, ![256, 1, 15]⟩
abbrev S256x15x1 : Shape := ⟨3, ![256, 15, 1]⟩
abbrev S256x14 : Shape := ⟨2, ![256, 14]⟩
abbrev S256x1x14 : Shape := ⟨3, ![256, 1, 14]⟩
abbrev S256x14x1 : Shape := ⟨3, ![256, 14, 1]⟩
abbrev S256x13 : Shape := ⟨2, ![256, 13]⟩
abbrev S256x1x13 : Shape := ⟨3, ![256, 1, 13]⟩
abbrev S256x13x1 : Shape := ⟨3, ![256, 13, 1]⟩
abbrev S256x12 : Shape := ⟨2, ![256, 12]⟩
abbrev S256x1x12 : Shape := ⟨3, ![256, 1, 12]⟩
abbrev S256x12x1 : Shape := ⟨3, ![256, 12, 1]⟩
abbrev S256x11 : Shape := ⟨2, ![256, 11]⟩
abbrev S256x1x11 : Shape := ⟨3, ![256, 1, 11]⟩
abbrev S256x11x1 : Shape := ⟨3, ![256, 11, 1]⟩
abbrev S256x10 : Shape := ⟨2, ![256, 10]⟩
abbrev S256x1x10 : Shape := ⟨3, ![256, 1, 10]⟩
abbrev S256x10x1 : Shape := ⟨3, ![256, 10, 1]⟩
abbrev S256x9 : Shape := ⟨2, ![256, 9]⟩
abbrev S256x1x9 : Shape := ⟨3, ![256, 1, 9]⟩
abbrev S256x9x1 : Shape := ⟨3, ![256, 9, 1]⟩
abbrev S256x8 : Shape := ⟨2, ![256, 8]⟩
abbrev S256x1x8 : Shape := ⟨3, ![256, 1, 8]⟩
abbrev S256x8x1 : Shape := ⟨3, ![256, 8, 1]⟩
abbrev S256x7 : Shape := ⟨2, ![256, 7]⟩
abbrev S256x1x7 : Shape := ⟨3, ![256, 1, 7]⟩
abbrev S256x7x1 : Shape := ⟨3, ![256, 7, 1]⟩
abbrev S256x6 : Shape := ⟨2, ![256, 6]⟩
abbrev S256x1x6 : Shape := ⟨3, ![256, 1, 6]⟩
abbrev S256x6x1 : Shape := ⟨3, ![256, 6, 1]⟩
abbrev S256x5 : Shape := ⟨2, ![256, 5]⟩
abbrev S256x1x5 : Shape := ⟨3, ![256, 1, 5]⟩
abbrev S256x5x1 : Shape := ⟨3, ![256, 5, 1]⟩
abbrev S256x4 : Shape := ⟨2, ![256, 4]⟩
abbrev S256x1x4 : Shape := ⟨3, ![256, 1, 4]⟩
abbrev S256x4x1 : Shape := ⟨3, ![256, 4, 1]⟩
abbrev S256x3 : Shape := ⟨2, ![256, 3]⟩
abbrev S256x1x3 : Shape := ⟨3, ![256, 1, 3]⟩
abbrev S256x3x1 : Shape := ⟨3, ![256, 3, 1]⟩
abbrev S256x2 : Shape := ⟨2, ![256, 2]⟩
abbrev S256x1x2 : Shape := ⟨3, ![256, 1, 2]⟩
abbrev S256x2x1 : Shape := ⟨3, ![256, 2, 1]⟩
abbrev S256x1 : Shape := ⟨2, ![256, 1]⟩
abbrev S256x1x1 : Shape := ⟨3, ![256, 1, 1]⟩

abbrev nBuf : Space → Nat
  | .hbm => 12
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S128x64, .f32⟩
  | .hbm, ⟨2, _⟩ => ⟨S128, .f32⟩
  | .hbm, ⟨3, _⟩ => ⟨S2016x128, .f32⟩
  | .hbm, ⟨4, _⟩ => ⟨S2016, .f32⟩
  | .hbm, ⟨5, _⟩ => ⟨S64x128, .f32⟩
  | .hbm, ⟨6, _⟩ => ⟨S64x128, .bf16⟩
  | .hbm, ⟨7, _⟩ => ⟨S128x2016, .f32⟩
  | .hbm, ⟨8, _⟩ => ⟨S128x2016, .bf16⟩
  | .hbm, ⟨9, _⟩ => ⟨S1x128, .f32⟩
  | .hbm, ⟨10, _⟩ => ⟨S1x2016, .f32⟩
  | .hbm, ⟨11, _⟩ => ⟨S16384x64x64, .f32⟩
  | .local _ .vmem, ⟨0, _⟩ => ⟨S256x64, .f32⟩
  | .local _ .vmem, ⟨1, _⟩ => ⟨S256x64, .f32⟩
  | .local _ .vmem, ⟨2, _⟩ => ⟨S64x128, .bf16⟩
  | .local _ .vmem, ⟨3, _⟩ => ⟨S1x128, .f32⟩
  | .local _ .vmem, ⟨4, _⟩ => ⟨S128x2016, .bf16⟩
  | .local _ .vmem, ⟨5, _⟩ => ⟨S1x2016, .f32⟩
  | .local _ .vmem, ⟨6, _⟩ => ⟨S256x64x64, .f32⟩
  | .local _ .vmem, ⟨7, _⟩ => ⟨S256x64x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2016 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2016 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x64_S64x128_1_0 : S128x64.Transposes [1, 0] S64x128
  bitsLt_bf16_f32 : FTy.bits .bf16 < FTy.bits .f32
  transposes_S2016x128_S128x2016_1_0 : S2016x128.Transposes [1, 0] S128x2016
  shapeCasts_S128_S1x128 : S128.ShapeCasts S1x128
  shapeCasts_S2016_S1x2016 : S2016.ShapeCasts S1x2016
  inb_S256x64_S256x64_0_0 : ∀ a, (![0, 0] : Fin 2 → Nat) a + S256x64.size a ≤ S256x64.size a
  h_S256x64 : 0 < S256x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x2016_S128x2016_0_0 : ∀ a, (![0, 0] : Fin 2 → Nat) a + S128x2016.size a ≤ S128x2016.size a
  h_S128x2016 : 0 < S128x2016.numel
  shapeCasts_S128x2016_S128x2016 : S128x2016.ShapeCasts S128x2016
  inb_S1x2016_S1x2016_0_0 : ∀ a, (![0, 0] : Fin 2 → Nat) a + S1x2016.size a ≤ S1x2016.size a
  h_S1x2016 : 0 < S1x2016.numel
  shapeCasts_S1x2016_S1x2016 : S1x2016.ShapeCasts S1x2016
  broadcasts_S1x2016_S256x2016 : S1x2016.Broadcasts S256x2016
  inb_S256x64x64_S256x64x64_0_0_0 : ∀ a, (![0, 0, 0] : Fin 3 → Nat) a + S256x64x64.size a ≤ S256x64x64.size a
  h_S256x64x64 : 0 < S256x64x64.numel
  slices_S256x2016_o0_0_S256x63 : S256x2016.Slices ![0, 0] S256x63
  shapeCasts_S256x63_S256x1x63 : S256x63.ShapeCasts S256x1x63
  inb_S256x64x64_S256x1x63_0_0_1 : ∀ a, (![0, 0, 1] : Fin 3 → Nat) a + S256x1x63.size a ≤ S256x64x64.size a
  h_S256x1x63 : 0 < S256x1x63.numel
  shapeCasts_S256x63_S256x63x1 : S256x63.ShapeCasts S256x63x1
  inb_S256x64x64_S256x63x1_0_1_0 : ∀ a, (![0, 1, 0] : Fin 3 → Nat) a + S256x63x1.size a ≤ S256x64x64.size a
  h_S256x63x1 : 0 < S256x63x1.numel
  slices_S256x2016_o0_63_S256x62 : S256x2016.Slices ![0, 63] S256x62
  shapeCasts_S256x62_S256x1x62 : S256x62.ShapeCasts S256x1x62
  inb_S256x64x64_S256x1x62_0_1_2 : ∀ a, (![0, 1, 2] : Fin 3 → Nat) a + S256x1x62.size a ≤ S256x64x64.size a
  h_S256x1x62 : 0 < S256x1x62.numel
  shapeCasts_S256x62_S256x62x1 : S256x62.ShapeCasts S256x62x1
  inb_S256x64x64_S256x62x1_0_2_1 : ∀ a, (![0, 2, 1] : Fin 3 → Nat) a + S256x62x1.size a ≤ S256x64x64.size a
  h_S256x62x1 : 0 < S256x62x1.numel
  slices_S256x2016_o0_125_S256x61 : S256x2016.Slices ![0, 125] S256x61
  shapeCasts_S256x61_S256x1x61 : S256x61.ShapeCasts S256x1x61
  inb_S256x64x64_S256x1x61_0_2_3 : ∀ a, (![0, 2, 3] : Fin 3 → Nat) a + S256x1x61.size a ≤ S256x64x64.size a
  h_S256x1x61 : 0 < S256x1x61.numel
  shapeCasts_S256x61_S256x61x1 : S256x61.ShapeCasts S256x61x1
  inb_S256x64x64_S256x61x1_0_3_2 : ∀ a, (![0, 3, 2] : Fin 3 → Nat) a + S256x61x1.size a ≤ S256x64x64.size a
  h_S256x61x1 : 0 < S256x61x1.numel
  slices_S256x2016_o0_186_S256x60 : S256x2016.Slices ![0, 186] S256x60
  shapeCasts_S256x60_S256x1x60 : S256x60.ShapeCasts S256x1x60
  inb_S256x64x64_S256x1x60_0_3_4 : ∀ a, (![0, 3, 4] : Fin 3 → Nat) a + S256x1x60.size a ≤ S256x64x64.size a
  h_S256x1x60 : 0 < S256x1x60.numel
  shapeCasts_S256x60_S256x60x1 : S256x60.ShapeCasts S256x60x1
  inb_S256x64x64_S256x60x1_0_4_3 : ∀ a, (![0, 4, 3] : Fin 3 → Nat) a + S256x60x1.size a ≤ S256x64x64.size a
  h_S256x60x1 : 0 < S256x60x1.numel
  slices_S256x2016_o0_246_S256x59 : S256x2016.Slices ![0, 246] S256x59
  shapeCasts_S256x59_S256x1x59 : S256x59.ShapeCasts S256x1x59
  inb_S256x64x64_S256x1x59_0_4_5 : ∀ a, (![0, 4, 5] : Fin 3 → Nat) a + S256x1x59.size a ≤ S256x64x64.size a
  h_S256x1x59 : 0 < S256x1x59.numel
  shapeCasts_S256x59_S256x59x1 : S256x59.ShapeCasts S256x59x1
  inb_S256x64x64_S256x59x1_0_5_4 : ∀ a, (![0, 5, 4] : Fin 3 → Nat) a + S256x59x1.size a ≤ S256x64x64.size a
  h_S256x59x1 : 0 < S256x59x1.numel
  slices_S256x2016_o0_305_S256x58 : S256x2016.Slices ![0, 305] S256x58
  shapeCasts_S256x58_S256x1x58 : S256x58.ShapeCasts S256x1x58
  inb_S256x64x64_S256x1x58_0_5_6 : ∀ a, (![0, 5, 6] : Fin 3 → Nat) a + S256x1x58.size a ≤ S256x64x64.size a
  h_S256x1x58 : 0 < S256x1x58.numel
  shapeCasts_S256x58_S256x58x1 : S256x58.ShapeCasts S256x58x1
  inb_S256x64x64_S256x58x1_0_6_5 : ∀ a, (![0, 6, 5] : Fin 3 → Nat) a + S256x58x1.size a ≤ S256x64x64.size a
  h_S256x58x1 : 0 < S256x58x1.numel
  slices_S256x2016_o0_363_S256x57 : S256x2016.Slices ![0, 363] S256x57
  shapeCasts_S256x57_S256x1x57 : S256x57.ShapeCasts S256x1x57
  inb_S256x64x64_S256x1x57_0_6_7 : ∀ a, (![0, 6, 7] : Fin 3 → Nat) a + S256x1x57.size a ≤ S256x64x64.size a
  h_S256x1x57 : 0 < S256x1x57.numel
  shapeCasts_S256x57_S256x57x1 : S256x57.ShapeCasts S256x57x1
  inb_S256x64x64_S256x57x1_0_7_6 : ∀ a, (![0, 7, 6] : Fin 3 → Nat) a + S256x57x1.size a ≤ S256x64x64.size a
  h_S256x57x1 : 0 < S256x57x1.numel
  slices_S256x2016_o0_420_S256x56 : S256x2016.Slices ![0, 420] S256x56
  shapeCasts_S256x56_S256x1x56 : S256x56.ShapeCasts S256x1x56
  inb_S256x64x64_S256x1x56_0_7_8 : ∀ a, (![0, 7, 8] : Fin 3 → Nat) a + S256x1x56.size a ≤ S256x64x64.size a
  h_S256x1x56 : 0 < S256x1x56.numel
  shapeCasts_S256x56_S256x56x1 : S256x56.ShapeCasts S256x56x1
  inb_S256x64x64_S256x56x1_0_8_7 : ∀ a, (![0, 8, 7] : Fin 3 → Nat) a + S256x56x1.size a ≤ S256x64x64.size a
  h_S256x56x1 : 0 < S256x56x1.numel
  slices_S256x2016_o0_476_S256x55 : S256x2016.Slices ![0, 476] S256x55
  shapeCasts_S256x55_S256x1x55 : S256x55.ShapeCasts S256x1x55
  inb_S256x64x64_S256x1x55_0_8_9 : ∀ a, (![0, 8, 9] : Fin 3 → Nat) a + S256x1x55.size a ≤ S256x64x64.size a
  h_S256x1x55 : 0 < S256x1x55.numel
  shapeCasts_S256x55_S256x55x1 : S256x55.ShapeCasts S256x55x1
  inb_S256x64x64_S256x55x1_0_9_8 : ∀ a, (![0, 9, 8] : Fin 3 → Nat) a + S256x55x1.size a ≤ S256x64x64.size a
  h_S256x55x1 : 0 < S256x55x1.numel
  slices_S256x2016_o0_531_S256x54 : S256x2016.Slices ![0, 531] S256x54
  shapeCasts_S256x54_S256x1x54 : S256x54.ShapeCasts S256x1x54
  inb_S256x64x64_S256x1x54_0_9_10 : ∀ a, (![0, 9, 10] : Fin 3 → Nat) a + S256x1x54.size a ≤ S256x64x64.size a
  h_S256x1x54 : 0 < S256x1x54.numel
  shapeCasts_S256x54_S256x54x1 : S256x54.ShapeCasts S256x54x1
  inb_S256x64x64_S256x54x1_0_10_9 : ∀ a, (![0, 10, 9] : Fin 3 → Nat) a + S256x54x1.size a ≤ S256x64x64.size a
  h_S256x54x1 : 0 < S256x54x1.numel
  slices_S256x2016_o0_585_S256x53 : S256x2016.Slices ![0, 585] S256x53
  shapeCasts_S256x53_S256x1x53 : S256x53.ShapeCasts S256x1x53
  inb_S256x64x64_S256x1x53_0_10_11 : ∀ a, (![0, 10, 11] : Fin 3 → Nat) a + S256x1x53.size a ≤ S256x64x64.size a
  h_S256x1x53 : 0 < S256x1x53.numel
  shapeCasts_S256x53_S256x53x1 : S256x53.ShapeCasts S256x53x1
  inb_S256x64x64_S256x53x1_0_11_10 : ∀ a, (![0, 11, 10] : Fin 3 → Nat) a + S256x53x1.size a ≤ S256x64x64.size a
  h_S256x53x1 : 0 < S256x53x1.numel
  slices_S256x2016_o0_638_S256x52 : S256x2016.Slices ![0, 638] S256x52
  shapeCasts_S256x52_S256x1x52 : S256x52.ShapeCasts S256x1x52
  inb_S256x64x64_S256x1x52_0_11_12 : ∀ a, (![0, 11, 12] : Fin 3 → Nat) a + S256x1x52.size a ≤ S256x64x64.size a
  h_S256x1x52 : 0 < S256x1x52.numel
  shapeCasts_S256x52_S256x52x1 : S256x52.ShapeCasts S256x52x1
  inb_S256x64x64_S256x52x1_0_12_11 : ∀ a, (![0, 12, 11] : Fin 3 → Nat) a + S256x52x1.size a ≤ S256x64x64.size a
  h_S256x52x1 : 0 < S256x52x1.numel
  slices_S256x2016_o0_690_S256x51 : S256x2016.Slices ![0, 690] S256x51
  shapeCasts_S256x51_S256x1x51 : S256x51.ShapeCasts S256x1x51
  inb_S256x64x64_S256x1x51_0_12_13 : ∀ a, (![0, 12, 13] : Fin 3 → Nat) a + S256x1x51.size a ≤ S256x64x64.size a
  h_S256x1x51 : 0 < S256x1x51.numel
  shapeCasts_S256x51_S256x51x1 : S256x51.ShapeCasts S256x51x1
  inb_S256x64x64_S256x51x1_0_13_12 : ∀ a, (![0, 13, 12] : Fin 3 → Nat) a + S256x51x1.size a ≤ S256x64x64.size a
  h_S256x51x1 : 0 < S256x51x1.numel
  slices_S256x2016_o0_741_S256x50 : S256x2016.Slices ![0, 741] S256x50
  shapeCasts_S256x50_S256x1x50 : S256x50.ShapeCasts S256x1x50
  inb_S256x64x64_S256x1x50_0_13_14 : ∀ a, (![0, 13, 14] : Fin 3 → Nat) a + S256x1x50.size a ≤ S256x64x64.size a
  h_S256x1x50 : 0 < S256x1x50.numel
  shapeCasts_S256x50_S256x50x1 : S256x50.ShapeCasts S256x50x1
  inb_S256x64x64_S256x50x1_0_14_13 : ∀ a, (![0, 14, 13] : Fin 3 → Nat) a + S256x50x1.size a ≤ S256x64x64.size a
  h_S256x50x1 : 0 < S256x50x1.numel
  slices_S256x2016_o0_791_S256x49 : S256x2016.Slices ![0, 791] S256x49
  shapeCasts_S256x49_S256x1x49 : S256x49.ShapeCasts S256x1x49
  inb_S256x64x64_S256x1x49_0_14_15 : ∀ a, (![0, 14, 15] : Fin 3 → Nat) a + S256x1x49.size a ≤ S256x64x64.size a
  h_S256x1x49 : 0 < S256x1x49.numel
  shapeCasts_S256x49_S256x49x1 : S256x49.ShapeCasts S256x49x1
  inb_S256x64x64_S256x49x1_0_15_14 : ∀ a, (![0, 15, 14] : Fin 3 → Nat) a + S256x49x1.size a ≤ S256x64x64.size a
  h_S256x49x1 : 0 < S256x49x1.numel
  slices_S256x2016_o0_840_S256x48 : S256x2016.Slices ![0, 840] S256x48
  shapeCasts_S256x48_S256x1x48 : S256x48.ShapeCasts S256x1x48
  inb_S256x64x64_S256x1x48_0_15_16 : ∀ a, (![0, 15, 16] : Fin 3 → Nat) a + S256x1x48.size a ≤ S256x64x64.size a
  h_S256x1x48 : 0 < S256x1x48.numel
  shapeCasts_S256x48_S256x48x1 : S256x48.ShapeCasts S256x48x1
  inb_S256x64x64_S256x48x1_0_16_15 : ∀ a, (![0, 16, 15] : Fin 3 → Nat) a + S256x48x1.size a ≤ S256x64x64.size a
  h_S256x48x1 : 0 < S256x48x1.numel
  slices_S256x2016_o0_888_S256x47 : S256x2016.Slices ![0, 888] S256x47
  shapeCasts_S256x47_S256x1x47 : S256x47.ShapeCasts S256x1x47
  inb_S256x64x64_S256x1x47_0_16_17 : ∀ a, (![0, 16, 17] : Fin 3 → Nat) a + S256x1x47.size a ≤ S256x64x64.size a
  h_S256x1x47 : 0 < S256x1x47.numel
  shapeCasts_S256x47_S256x47x1 : S256x47.ShapeCasts S256x47x1
  inb_S256x64x64_S256x47x1_0_17_16 : ∀ a, (![0, 17, 16] : Fin 3 → Nat) a + S256x47x1.size a ≤ S256x64x64.size a
  h_S256x47x1 : 0 < S256x47x1.numel
  slices_S256x2016_o0_935_S256x46 : S256x2016.Slices ![0, 935] S256x46
  shapeCasts_S256x46_S256x1x46 : S256x46.ShapeCasts S256x1x46
  inb_S256x64x64_S256x1x46_0_17_18 : ∀ a, (![0, 17, 18] : Fin 3 → Nat) a + S256x1x46.size a ≤ S256x64x64.size a
  h_S256x1x46 : 0 < S256x1x46.numel
  shapeCasts_S256x46_S256x46x1 : S256x46.ShapeCasts S256x46x1
  inb_S256x64x64_S256x46x1_0_18_17 : ∀ a, (![0, 18, 17] : Fin 3 → Nat) a + S256x46x1.size a ≤ S256x64x64.size a
  h_S256x46x1 : 0 < S256x46x1.numel
  slices_S256x2016_o0_981_S256x45 : S256x2016.Slices ![0, 981] S256x45
  shapeCasts_S256x45_S256x1x45 : S256x45.ShapeCasts S256x1x45
  inb_S256x64x64_S256x1x45_0_18_19 : ∀ a, (![0, 18, 19] : Fin 3 → Nat) a + S256x1x45.size a ≤ S256x64x64.size a
  h_S256x1x45 : 0 < S256x1x45.numel
  shapeCasts_S256x45_S256x45x1 : S256x45.ShapeCasts S256x45x1
  inb_S256x64x64_S256x45x1_0_19_18 : ∀ a, (![0, 19, 18] : Fin 3 → Nat) a + S256x45x1.size a ≤ S256x64x64.size a
  h_S256x45x1 : 0 < S256x45x1.numel
  slices_S256x2016_o0_1026_S256x44 : S256x2016.Slices ![0, 1026] S256x44
  shapeCasts_S256x44_S256x1x44 : S256x44.ShapeCasts S256x1x44
  inb_S256x64x64_S256x1x44_0_19_20 : ∀ a, (![0, 19, 20] : Fin 3 → Nat) a + S256x1x44.size a ≤ S256x64x64.size a
  h_S256x1x44 : 0 < S256x1x44.numel
  shapeCasts_S256x44_S256x44x1 : S256x44.ShapeCasts S256x44x1
  inb_S256x64x64_S256x44x1_0_20_19 : ∀ a, (![0, 20, 19] : Fin 3 → Nat) a + S256x44x1.size a ≤ S256x64x64.size a
  h_S256x44x1 : 0 < S256x44x1.numel
  slices_S256x2016_o0_1070_S256x43 : S256x2016.Slices ![0, 1070] S256x43
  shapeCasts_S256x43_S256x1x43 : S256x43.ShapeCasts S256x1x43
  inb_S256x64x64_S256x1x43_0_20_21 : ∀ a, (![0, 20, 21] : Fin 3 → Nat) a + S256x1x43.size a ≤ S256x64x64.size a
  h_S256x1x43 : 0 < S256x1x43.numel
  shapeCasts_S256x43_S256x43x1 : S256x43.ShapeCasts S256x43x1
  inb_S256x64x64_S256x43x1_0_21_20 : ∀ a, (![0, 21, 20] : Fin 3 → Nat) a + S256x43x1.size a ≤ S256x64x64.size a
  h_S256x43x1 : 0 < S256x43x1.numel
  slices_S256x2016_o0_1113_S256x42 : S256x2016.Slices ![0, 1113] S256x42
  shapeCasts_S256x42_S256x1x42 : S256x42.ShapeCasts S256x1x42
  inb_S256x64x64_S256x1x42_0_21_22 : ∀ a, (![0, 21, 22] : Fin 3 → Nat) a + S256x1x42.size a ≤ S256x64x64.size a
  h_S256x1x42 : 0 < S256x1x42.numel
  shapeCasts_S256x42_S256x42x1 : S256x42.ShapeCasts S256x42x1
  inb_S256x64x64_S256x42x1_0_22_21 : ∀ a, (![0, 22, 21] : Fin 3 → Nat) a + S256x42x1.size a ≤ S256x64x64.size a
  h_S256x42x1 : 0 < S256x42x1.numel
  slices_S256x2016_o0_1155_S256x41 : S256x2016.Slices ![0, 1155] S256x41
  shapeCasts_S256x41_S256x1x41 : S256x41.ShapeCasts S256x1x41
  inb_S256x64x64_S256x1x41_0_22_23 : ∀ a, (![0, 22, 23] : Fin 3 → Nat) a + S256x1x41.size a ≤ S256x64x64.size a
  h_S256x1x41 : 0 < S256x1x41.numel
  shapeCasts_S256x41_S256x41x1 : S256x41.ShapeCasts S256x41x1
  inb_S256x64x64_S256x41x1_0_23_22 : ∀ a, (![0, 23, 22] : Fin 3 → Nat) a + S256x41x1.size a ≤ S256x64x64.size a
  h_S256x41x1 : 0 < S256x41x1.numel
  slices_S256x2016_o0_1196_S256x40 : S256x2016.Slices ![0, 1196] S256x40
  shapeCasts_S256x40_S256x1x40 : S256x40.ShapeCasts S256x1x40
  inb_S256x64x64_S256x1x40_0_23_24 : ∀ a, (![0, 23, 24] : Fin 3 → Nat) a + S256x1x40.size a ≤ S256x64x64.size a
  h_S256x1x40 : 0 < S256x1x40.numel
  shapeCasts_S256x40_S256x40x1 : S256x40.ShapeCasts S256x40x1
  inb_S256x64x64_S256x40x1_0_24_23 : ∀ a, (![0, 24, 23] : Fin 3 → Nat) a + S256x40x1.size a ≤ S256x64x64.size a
  h_S256x40x1 : 0 < S256x40x1.numel
  slices_S256x2016_o0_1236_S256x39 : S256x2016.Slices ![0, 1236] S256x39
  shapeCasts_S256x39_S256x1x39 : S256x39.ShapeCasts S256x1x39
  inb_S256x64x64_S256x1x39_0_24_25 : ∀ a, (![0, 24, 25] : Fin 3 → Nat) a + S256x1x39.size a ≤ S256x64x64.size a
  h_S256x1x39 : 0 < S256x1x39.numel
  shapeCasts_S256x39_S256x39x1 : S256x39.ShapeCasts S256x39x1
  inb_S256x64x64_S256x39x1_0_25_24 : ∀ a, (![0, 25, 24] : Fin 3 → Nat) a + S256x39x1.size a ≤ S256x64x64.size a
  h_S256x39x1 : 0 < S256x39x1.numel
  slices_S256x2016_o0_1275_S256x38 : S256x2016.Slices ![0, 1275] S256x38
  shapeCasts_S256x38_S256x1x38 : S256x38.ShapeCasts S256x1x38
  inb_S256x64x64_S256x1x38_0_25_26 : ∀ a, (![0, 25, 26] : Fin 3 → Nat) a + S256x1x38.size a ≤ S256x64x64.size a
  h_S256x1x38 : 0 < S256x1x38.numel
  shapeCasts_S256x38_S256x38x1 : S256x38.ShapeCasts S256x38x1
  inb_S256x64x64_S256x38x1_0_26_25 : ∀ a, (![0, 26, 25] : Fin 3 → Nat) a + S256x38x1.size a ≤ S256x64x64.size a
  h_S256x38x1 : 0 < S256x38x1.numel
  slices_S256x2016_o0_1313_S256x37 : S256x2016.Slices ![0, 1313] S256x37
  shapeCasts_S256x37_S256x1x37 : S256x37.ShapeCasts S256x1x37
  inb_S256x64x64_S256x1x37_0_26_27 : ∀ a, (![0, 26, 27] : Fin 3 → Nat) a + S256x1x37.size a ≤ S256x64x64.size a
  h_S256x1x37 : 0 < S256x1x37.numel
  shapeCasts_S256x37_S256x37x1 : S256x37.ShapeCasts S256x37x1
  inb_S256x64x64_S256x37x1_0_27_26 : ∀ a, (![0, 27, 26] : Fin 3 → Nat) a + S256x37x1.size a ≤ S256x64x64.size a
  h_S256x37x1 : 0 < S256x37x1.numel
  slices_S256x2016_o0_1350_S256x36 : S256x2016.Slices ![0, 1350] S256x36
  shapeCasts_S256x36_S256x1x36 : S256x36.ShapeCasts S256x1x36
  inb_S256x64x64_S256x1x36_0_27_28 : ∀ a, (![0, 27, 28] : Fin 3 → Nat) a + S256x1x36.size a ≤ S256x64x64.size a
  h_S256x1x36 : 0 < S256x1x36.numel
  shapeCasts_S256x36_S256x36x1 : S256x36.ShapeCasts S256x36x1
  inb_S256x64x64_S256x36x1_0_28_27 : ∀ a, (![0, 28, 27] : Fin 3 → Nat) a + S256x36x1.size a ≤ S256x64x64.size a
  h_S256x36x1 : 0 < S256x36x1.numel
  slices_S256x2016_o0_1386_S256x35 : S256x2016.Slices ![0, 1386] S256x35
  shapeCasts_S256x35_S256x1x35 : S256x35.ShapeCasts S256x1x35
  inb_S256x64x64_S256x1x35_0_28_29 : ∀ a, (![0, 28, 29] : Fin 3 → Nat) a + S256x1x35.size a ≤ S256x64x64.size a
  h_S256x1x35 : 0 < S256x1x35.numel
  shapeCasts_S256x35_S256x35x1 : S256x35.ShapeCasts S256x35x1
  inb_S256x64x64_S256x35x1_0_29_28 : ∀ a, (![0, 29, 28] : Fin 3 → Nat) a + S256x35x1.size a ≤ S256x64x64.size a
  h_S256x35x1 : 0 < S256x35x1.numel
  slices_S256x2016_o0_1421_S256x34 : S256x2016.Slices ![0, 1421] S256x34
  shapeCasts_S256x34_S256x1x34 : S256x34.ShapeCasts S256x1x34
  inb_S256x64x64_S256x1x34_0_29_30 : ∀ a, (![0, 29, 30] : Fin 3 → Nat) a + S256x1x34.size a ≤ S256x64x64.size a
  h_S256x1x34 : 0 < S256x1x34.numel
  shapeCasts_S256x34_S256x34x1 : S256x34.ShapeCasts S256x34x1
  inb_S256x64x64_S256x34x1_0_30_29 : ∀ a, (![0, 30, 29] : Fin 3 → Nat) a + S256x34x1.size a ≤ S256x64x64.size a
  h_S256x34x1 : 0 < S256x34x1.numel
  slices_S256x2016_o0_1455_S256x33 : S256x2016.Slices ![0, 1455] S256x33
  shapeCasts_S256x33_S256x1x33 : S256x33.ShapeCasts S256x1x33
  inb_S256x64x64_S256x1x33_0_30_31 : ∀ a, (![0, 30, 31] : Fin 3 → Nat) a + S256x1x33.size a ≤ S256x64x64.size a
  h_S256x1x33 : 0 < S256x1x33.numel
  shapeCasts_S256x33_S256x33x1 : S256x33.ShapeCasts S256x33x1
  inb_S256x64x64_S256x33x1_0_31_30 : ∀ a, (![0, 31, 30] : Fin 3 → Nat) a + S256x33x1.size a ≤ S256x64x64.size a
  h_S256x33x1 : 0 < S256x33x1.numel
  slices_S256x2016_o0_1488_S256x32 : S256x2016.Slices ![0, 1488] S256x32
  shapeCasts_S256x32_S256x1x32 : S256x32.ShapeCasts S256x1x32
  inb_S256x64x64_S256x1x32_0_31_32 : ∀ a, (![0, 31, 32] : Fin 3 → Nat) a + S256x1x32.size a ≤ S256x64x64.size a
  h_S256x1x32 : 0 < S256x1x32.numel
  shapeCasts_S256x32_S256x32x1 : S256x32.ShapeCasts S256x32x1
  inb_S256x64x64_S256x32x1_0_32_31 : ∀ a, (![0, 32, 31] : Fin 3 → Nat) a + S256x32x1.size a ≤ S256x64x64.size a
  h_S256x32x1 : 0 < S256x32x1.numel
  slices_S256x2016_o0_1520_S256x31 : S256x2016.Slices ![0, 1520] S256x31
  shapeCasts_S256x31_S256x1x31 : S256x31.ShapeCasts S256x1x31
  inb_S256x64x64_S256x1x31_0_32_33 : ∀ a, (![0, 32, 33] : Fin 3 → Nat) a + S256x1x31.size a ≤ S256x64x64.size a
  h_S256x1x31 : 0 < S256x1x31.numel
  shapeCasts_S256x31_S256x31x1 : S256x31.ShapeCasts S256x31x1
  inb_S256x64x64_S256x31x1_0_33_32 : ∀ a, (![0, 33, 32] : Fin 3 → Nat) a + S256x31x1.size a ≤ S256x64x64.size a
  h_S256x31x1 : 0 < S256x31x1.numel
  slices_S256x2016_o0_1551_S256x30 : S256x2016.Slices ![0, 1551] S256x30
  shapeCasts_S256x30_S256x1x30 : S256x30.ShapeCasts S256x1x30
  inb_S256x64x64_S256x1x30_0_33_34 : ∀ a, (![0, 33, 34] : Fin 3 → Nat) a + S256x1x30.size a ≤ S256x64x64.size a
  h_S256x1x30 : 0 < S256x1x30.numel
  shapeCasts_S256x30_S256x30x1 : S256x30.ShapeCasts S256x30x1
  inb_S256x64x64_S256x30x1_0_34_33 : ∀ a, (![0, 34, 33] : Fin 3 → Nat) a + S256x30x1.size a ≤ S256x64x64.size a
  h_S256x30x1 : 0 < S256x30x1.numel
  slices_S256x2016_o0_1581_S256x29 : S256x2016.Slices ![0, 1581] S256x29
  shapeCasts_S256x29_S256x1x29 : S256x29.ShapeCasts S256x1x29
  inb_S256x64x64_S256x1x29_0_34_35 : ∀ a, (![0, 34, 35] : Fin 3 → Nat) a + S256x1x29.size a ≤ S256x64x64.size a
  h_S256x1x29 : 0 < S256x1x29.numel
  shapeCasts_S256x29_S256x29x1 : S256x29.ShapeCasts S256x29x1
  inb_S256x64x64_S256x29x1_0_35_34 : ∀ a, (![0, 35, 34] : Fin 3 → Nat) a + S256x29x1.size a ≤ S256x64x64.size a
  h_S256x29x1 : 0 < S256x29x1.numel
  slices_S256x2016_o0_1610_S256x28 : S256x2016.Slices ![0, 1610] S256x28
  shapeCasts_S256x28_S256x1x28 : S256x28.ShapeCasts S256x1x28
  inb_S256x64x64_S256x1x28_0_35_36 : ∀ a, (![0, 35, 36] : Fin 3 → Nat) a + S256x1x28.size a ≤ S256x64x64.size a
  h_S256x1x28 : 0 < S256x1x28.numel
  shapeCasts_S256x28_S256x28x1 : S256x28.ShapeCasts S256x28x1
  inb_S256x64x64_S256x28x1_0_36_35 : ∀ a, (![0, 36, 35] : Fin 3 → Nat) a + S256x28x1.size a ≤ S256x64x64.size a
  h_S256x28x1 : 0 < S256x28x1.numel
  slices_S256x2016_o0_1638_S256x27 : S256x2016.Slices ![0, 1638] S256x27
  shapeCasts_S256x27_S256x1x27 : S256x27.ShapeCasts S256x1x27
  inb_S256x64x64_S256x1x27_0_36_37 : ∀ a, (![0, 36, 37] : Fin 3 → Nat) a + S256x1x27.size a ≤ S256x64x64.size a
  h_S256x1x27 : 0 < S256x1x27.numel
  shapeCasts_S256x27_S256x27x1 : S256x27.ShapeCasts S256x27x1
  inb_S256x64x64_S256x27x1_0_37_36 : ∀ a, (![0, 37, 36] : Fin 3 → Nat) a + S256x27x1.size a ≤ S256x64x64.size a
  h_S256x27x1 : 0 < S256x27x1.numel
  slices_S256x2016_o0_1665_S256x26 : S256x2016.Slices ![0, 1665] S256x26
  shapeCasts_S256x26_S256x1x26 : S256x26.ShapeCasts S256x1x26
  inb_S256x64x64_S256x1x26_0_37_38 : ∀ a, (![0, 37, 38] : Fin 3 → Nat) a + S256x1x26.size a ≤ S256x64x64.size a
  h_S256x1x26 : 0 < S256x1x26.numel
  shapeCasts_S256x26_S256x26x1 : S256x26.ShapeCasts S256x26x1
  inb_S256x64x64_S256x26x1_0_38_37 : ∀ a, (![0, 38, 37] : Fin 3 → Nat) a + S256x26x1.size a ≤ S256x64x64.size a
  h_S256x26x1 : 0 < S256x26x1.numel
  slices_S256x2016_o0_1691_S256x25 : S256x2016.Slices ![0, 1691] S256x25
  shapeCasts_S256x25_S256x1x25 : S256x25.ShapeCasts S256x1x25
  inb_S256x64x64_S256x1x25_0_38_39 : ∀ a, (![0, 38, 39] : Fin 3 → Nat) a + S256x1x25.size a ≤ S256x64x64.size a
  h_S256x1x25 : 0 < S256x1x25.numel
  shapeCasts_S256x25_S256x25x1 : S256x25.ShapeCasts S256x25x1
  inb_S256x64x64_S256x25x1_0_39_38 : ∀ a, (![0, 39, 38] : Fin 3 → Nat) a + S256x25x1.size a ≤ S256x64x64.size a
  h_S256x25x1 : 0 < S256x25x1.numel
  slices_S256x2016_o0_1716_S256x24 : S256x2016.Slices ![0, 1716] S256x24
  shapeCasts_S256x24_S256x1x24 : S256x24.ShapeCasts S256x1x24
  inb_S256x64x64_S256x1x24_0_39_40 : ∀ a, (![0, 39, 40] : Fin 3 → Nat) a + S256x1x24.size a ≤ S256x64x64.size a
  h_S256x1x24 : 0 < S256x1x24.numel
  shapeCasts_S256x24_S256x24x1 : S256x24.ShapeCasts S256x24x1
  inb_S256x64x64_S256x24x1_0_40_39 : ∀ a, (![0, 40, 39] : Fin 3 → Nat) a + S256x24x1.size a ≤ S256x64x64.size a
  h_S256x24x1 : 0 < S256x24x1.numel
  slices_S256x2016_o0_1740_S256x23 : S256x2016.Slices ![0, 1740] S256x23
  shapeCasts_S256x23_S256x1x23 : S256x23.ShapeCasts S256x1x23
  inb_S256x64x64_S256x1x23_0_40_41 : ∀ a, (![0, 40, 41] : Fin 3 → Nat) a + S256x1x23.size a ≤ S256x64x64.size a
  h_S256x1x23 : 0 < S256x1x23.numel
  shapeCasts_S256x23_S256x23x1 : S256x23.ShapeCasts S256x23x1
  inb_S256x64x64_S256x23x1_0_41_40 : ∀ a, (![0, 41, 40] : Fin 3 → Nat) a + S256x23x1.size a ≤ S256x64x64.size a
  h_S256x23x1 : 0 < S256x23x1.numel
  slices_S256x2016_o0_1763_S256x22 : S256x2016.Slices ![0, 1763] S256x22
  shapeCasts_S256x22_S256x1x22 : S256x22.ShapeCasts S256x1x22
  inb_S256x64x64_S256x1x22_0_41_42 : ∀ a, (![0, 41, 42] : Fin 3 → Nat) a + S256x1x22.size a ≤ S256x64x64.size a
  h_S256x1x22 : 0 < S256x1x22.numel
  shapeCasts_S256x22_S256x22x1 : S256x22.ShapeCasts S256x22x1
  inb_S256x64x64_S256x22x1_0_42_41 : ∀ a, (![0, 42, 41] : Fin 3 → Nat) a + S256x22x1.size a ≤ S256x64x64.size a
  h_S256x22x1 : 0 < S256x22x1.numel
  slices_S256x2016_o0_1785_S256x21 : S256x2016.Slices ![0, 1785] S256x21
  shapeCasts_S256x21_S256x1x21 : S256x21.ShapeCasts S256x1x21
  inb_S256x64x64_S256x1x21_0_42_43 : ∀ a, (![0, 42, 43] : Fin 3 → Nat) a + S256x1x21.size a ≤ S256x64x64.size a
  h_S256x1x21 : 0 < S256x1x21.numel
  shapeCasts_S256x21_S256x21x1 : S256x21.ShapeCasts S256x21x1
  inb_S256x64x64_S256x21x1_0_43_42 : ∀ a, (![0, 43, 42] : Fin 3 → Nat) a + S256x21x1.size a ≤ S256x64x64.size a
  h_S256x21x1 : 0 < S256x21x1.numel
  slices_S256x2016_o0_1806_S256x20 : S256x2016.Slices ![0, 1806] S256x20
  shapeCasts_S256x20_S256x1x20 : S256x20.ShapeCasts S256x1x20
  inb_S256x64x64_S256x1x20_0_43_44 : ∀ a, (![0, 43, 44] : Fin 3 → Nat) a + S256x1x20.size a ≤ S256x64x64.size a
  h_S256x1x20 : 0 < S256x1x20.numel
  shapeCasts_S256x20_S256x20x1 : S256x20.ShapeCasts S256x20x1
  inb_S256x64x64_S256x20x1_0_44_43 : ∀ a, (![0, 44, 43] : Fin 3 → Nat) a + S256x20x1.size a ≤ S256x64x64.size a
  h_S256x20x1 : 0 < S256x20x1.numel
  slices_S256x2016_o0_1826_S256x19 : S256x2016.Slices ![0, 1826] S256x19
  shapeCasts_S256x19_S256x1x19 : S256x19.ShapeCasts S256x1x19
  inb_S256x64x64_S256x1x19_0_44_45 : ∀ a, (![0, 44, 45] : Fin 3 → Nat) a + S256x1x19.size a ≤ S256x64x64.size a
  h_S256x1x19 : 0 < S256x1x19.numel
  shapeCasts_S256x19_S256x19x1 : S256x19.ShapeCasts S256x19x1
  inb_S256x64x64_S256x19x1_0_45_44 : ∀ a, (![0, 45, 44] : Fin 3 → Nat) a + S256x19x1.size a ≤ S256x64x64.size a
  h_S256x19x1 : 0 < S256x19x1.numel
  slices_S256x2016_o0_1845_S256x18 : S256x2016.Slices ![0, 1845] S256x18
  shapeCasts_S256x18_S256x1x18 : S256x18.ShapeCasts S256x1x18
  inb_S256x64x64_S256x1x18_0_45_46 : ∀ a, (![0, 45, 46] : Fin 3 → Nat) a + S256x1x18.size a ≤ S256x64x64.size a
  h_S256x1x18 : 0 < S256x1x18.numel
  shapeCasts_S256x18_S256x18x1 : S256x18.ShapeCasts S256x18x1
  inb_S256x64x64_S256x18x1_0_46_45 : ∀ a, (![0, 46, 45] : Fin 3 → Nat) a + S256x18x1.size a ≤ S256x64x64.size a
  h_S256x18x1 : 0 < S256x18x1.numel
  slices_S256x2016_o0_1863_S256x17 : S256x2016.Slices ![0, 1863] S256x17
  shapeCasts_S256x17_S256x1x17 : S256x17.ShapeCasts S256x1x17
  inb_S256x64x64_S256x1x17_0_46_47 : ∀ a, (![0, 46, 47] : Fin 3 → Nat) a + S256x1x17.size a ≤ S256x64x64.size a
  h_S256x1x17 : 0 < S256x1x17.numel
  shapeCasts_S256x17_S256x17x1 : S256x17.ShapeCasts S256x17x1
  inb_S256x64x64_S256x17x1_0_47_46 : ∀ a, (![0, 47, 46] : Fin 3 → Nat) a + S256x17x1.size a ≤ S256x64x64.size a
  h_S256x17x1 : 0 < S256x17x1.numel
  slices_S256x2016_o0_1880_S256x16 : S256x2016.Slices ![0, 1880] S256x16
  shapeCasts_S256x16_S256x1x16 : S256x16.ShapeCasts S256x1x16
  inb_S256x64x64_S256x1x16_0_47_48 : ∀ a, (![0, 47, 48] : Fin 3 → Nat) a + S256x1x16.size a ≤ S256x64x64.size a
  h_S256x1x16 : 0 < S256x1x16.numel
  shapeCasts_S256x16_S256x16x1 : S256x16.ShapeCasts S256x16x1
  inb_S256x64x64_S256x16x1_0_48_47 : ∀ a, (![0, 48, 47] : Fin 3 → Nat) a + S256x16x1.size a ≤ S256x64x64.size a
  h_S256x16x1 : 0 < S256x16x1.numel
  slices_S256x2016_o0_1896_S256x15 : S256x2016.Slices ![0, 1896] S256x15
  shapeCasts_S256x15_S256x1x15 : S256x15.ShapeCasts S256x1x15
  inb_S256x64x64_S256x1x15_0_48_49 : ∀ a, (![0, 48, 49] : Fin 3 → Nat) a + S256x1x15.size a ≤ S256x64x64.size a
  h_S256x1x15 : 0 < S256x1x15.numel
  shapeCasts_S256x15_S256x15x1 : S256x15.ShapeCasts S256x15x1
  inb_S256x64x64_S256x15x1_0_49_48 : ∀ a, (![0, 49, 48] : Fin 3 → Nat) a + S256x15x1.size a ≤ S256x64x64.size a
  h_S256x15x1 : 0 < S256x15x1.numel
  slices_S256x2016_o0_1911_S256x14 : S256x2016.Slices ![0, 1911] S256x14
  shapeCasts_S256x14_S256x1x14 : S256x14.ShapeCasts S256x1x14
  inb_S256x64x64_S256x1x14_0_49_50 : ∀ a, (![0, 49, 50] : Fin 3 → Nat) a + S256x1x14.size a ≤ S256x64x64.size a
  h_S256x1x14 : 0 < S256x1x14.numel
  shapeCasts_S256x14_S256x14x1 : S256x14.ShapeCasts S256x14x1
  inb_S256x64x64_S256x14x1_0_50_49 : ∀ a, (![0, 50, 49] : Fin 3 → Nat) a + S256x14x1.size a ≤ S256x64x64.size a
  h_S256x14x1 : 0 < S256x14x1.numel
  slices_S256x2016_o0_1925_S256x13 : S256x2016.Slices ![0, 1925] S256x13
  shapeCasts_S256x13_S256x1x13 : S256x13.ShapeCasts S256x1x13
  inb_S256x64x64_S256x1x13_0_50_51 : ∀ a, (![0, 50, 51] : Fin 3 → Nat) a + S256x1x13.size a ≤ S256x64x64.size a
  h_S256x1x13 : 0 < S256x1x13.numel
  shapeCasts_S256x13_S256x13x1 : S256x13.ShapeCasts S256x13x1
  inb_S256x64x64_S256x13x1_0_51_50 : ∀ a, (![0, 51, 50] : Fin 3 → Nat) a + S256x13x1.size a ≤ S256x64x64.size a
  h_S256x13x1 : 0 < S256x13x1.numel
  slices_S256x2016_o0_1938_S256x12 : S256x2016.Slices ![0, 1938] S256x12
  shapeCasts_S256x12_S256x1x12 : S256x12.ShapeCasts S256x1x12
  inb_S256x64x64_S256x1x12_0_51_52 : ∀ a, (![0, 51, 52] : Fin 3 → Nat) a + S256x1x12.size a ≤ S256x64x64.size a
  h_S256x1x12 : 0 < S256x1x12.numel
  shapeCasts_S256x12_S256x12x1 : S256x12.ShapeCasts S256x12x1
  inb_S256x64x64_S256x12x1_0_52_51 : ∀ a, (![0, 52, 51] : Fin 3 → Nat) a + S256x12x1.size a ≤ S256x64x64.size a
  h_S256x12x1 : 0 < S256x12x1.numel
  slices_S256x2016_o0_1950_S256x11 : S256x2016.Slices ![0, 1950] S256x11
  shapeCasts_S256x11_S256x1x11 : S256x11.ShapeCasts S256x1x11
  inb_S256x64x64_S256x1x11_0_52_53 : ∀ a, (![0, 52, 53] : Fin 3 → Nat) a + S256x1x11.size a ≤ S256x64x64.size a
  h_S256x1x11 : 0 < S256x1x11.numel
  shapeCasts_S256x11_S256x11x1 : S256x11.ShapeCasts S256x11x1
  inb_S256x64x64_S256x11x1_0_53_52 : ∀ a, (![0, 53, 52] : Fin 3 → Nat) a + S256x11x1.size a ≤ S256x64x64.size a
  h_S256x11x1 : 0 < S256x11x1.numel
  slices_S256x2016_o0_1961_S256x10 : S256x2016.Slices ![0, 1961] S256x10
  shapeCasts_S256x10_S256x1x10 : S256x10.ShapeCasts S256x1x10
  inb_S256x64x64_S256x1x10_0_53_54 : ∀ a, (![0, 53, 54] : Fin 3 → Nat) a + S256x1x10.size a ≤ S256x64x64.size a
  h_S256x1x10 : 0 < S256x1x10.numel
  shapeCasts_S256x10_S256x10x1 : S256x10.ShapeCasts S256x10x1
  inb_S256x64x64_S256x10x1_0_54_53 : ∀ a, (![0, 54, 53] : Fin 3 → Nat) a + S256x10x1.size a ≤ S256x64x64.size a
  h_S256x10x1 : 0 < S256x10x1.numel
  slices_S256x2016_o0_1971_S256x9 : S256x2016.Slices ![0, 1971] S256x9
  shapeCasts_S256x9_S256x1x9 : S256x9.ShapeCasts S256x1x9
  inb_S256x64x64_S256x1x9_0_54_55 : ∀ a, (![0, 54, 55] : Fin 3 → Nat) a + S256x1x9.size a ≤ S256x64x64.size a
  h_S256x1x9 : 0 < S256x1x9.numel
  shapeCasts_S256x9_S256x9x1 : S256x9.ShapeCasts S256x9x1
  inb_S256x64x64_S256x9x1_0_55_54 : ∀ a, (![0, 55, 54] : Fin 3 → Nat) a + S256x9x1.size a ≤ S256x64x64.size a
  h_S256x9x1 : 0 < S256x9x1.numel
  slices_S256x2016_o0_1980_S256x8 : S256x2016.Slices ![0, 1980] S256x8
  shapeCasts_S256x8_S256x1x8 : S256x8.ShapeCasts S256x1x8
  inb_S256x64x64_S256x1x8_0_55_56 : ∀ a, (![0, 55, 56] : Fin 3 → Nat) a + S256x1x8.size a ≤ S256x64x64.size a
  h_S256x1x8 : 0 < S256x1x8.numel
  shapeCasts_S256x8_S256x8x1 : S256x8.ShapeCasts S256x8x1
  inb_S256x64x64_S256x8x1_0_56_55 : ∀ a, (![0, 56, 55] : Fin 3 → Nat) a + S256x8x1.size a ≤ S256x64x64.size a
  h_S256x8x1 : 0 < S256x8x1.numel
  slices_S256x2016_o0_1988_S256x7 : S256x2016.Slices ![0, 1988] S256x7
  shapeCasts_S256x7_S256x1x7 : S256x7.ShapeCasts S256x1x7
  inb_S256x64x64_S256x1x7_0_56_57 : ∀ a, (![0, 56, 57] : Fin 3 → Nat) a + S256x1x7.size a ≤ S256x64x64.size a
  h_S256x1x7 : 0 < S256x1x7.numel
  shapeCasts_S256x7_S256x7x1 : S256x7.ShapeCasts S256x7x1
  inb_S256x64x64_S256x7x1_0_57_56 : ∀ a, (![0, 57, 56] : Fin 3 → Nat) a + S256x7x1.size a ≤ S256x64x64.size a
  h_S256x7x1 : 0 < S256x7x1.numel
  slices_S256x2016_o0_1995_S256x6 : S256x2016.Slices ![0, 1995] S256x6
  shapeCasts_S256x6_S256x1x6 : S256x6.ShapeCasts S256x1x6
  inb_S256x64x64_S256x1x6_0_57_58 : ∀ a, (![0, 57, 58] : Fin 3 → Nat) a + S256x1x6.size a ≤ S256x64x64.size a
  h_S256x1x6 : 0 < S256x1x6.numel
  shapeCasts_S256x6_S256x6x1 : S256x6.ShapeCasts S256x6x1
  inb_S256x64x64_S256x6x1_0_58_57 : ∀ a, (![0, 58, 57] : Fin 3 → Nat) a + S256x6x1.size a ≤ S256x64x64.size a
  h_S256x6x1 : 0 < S256x6x1.numel
  slices_S256x2016_o0_2001_S256x5 : S256x2016.Slices ![0, 2001] S256x5
  shapeCasts_S256x5_S256x1x5 : S256x5.ShapeCasts S256x1x5
  inb_S256x64x64_S256x1x5_0_58_59 : ∀ a, (![0, 58, 59] : Fin 3 → Nat) a + S256x1x5.size a ≤ S256x64x64.size a
  h_S256x1x5 : 0 < S256x1x5.numel
  shapeCasts_S256x5_S256x5x1 : S256x5.ShapeCasts S256x5x1
  inb_S256x64x64_S256x5x1_0_59_58 : ∀ a, (![0, 59, 58] : Fin 3 → Nat) a + S256x5x1.size a ≤ S256x64x64.size a
  h_S256x5x1 : 0 < S256x5x1.numel
  slices_S256x2016_o0_2006_S256x4 : S256x2016.Slices ![0, 2006] S256x4
  shapeCasts_S256x4_S256x1x4 : S256x4.ShapeCasts S256x1x4
  inb_S256x64x64_S256x1x4_0_59_60 : ∀ a, (![0, 59, 60] : Fin 3 → Nat) a + S256x1x4.size a ≤ S256x64x64.size a
  h_S256x1x4 : 0 < S256x1x4.numel
  shapeCasts_S256x4_S256x4x1 : S256x4.ShapeCasts S256x4x1
  inb_S256x64x64_S256x4x1_0_60_59 : ∀ a, (![0, 60, 59] : Fin 3 → Nat) a + S256x4x1.size a ≤ S256x64x64.size a
  h_S256x4x1 : 0 < S256x4x1.numel
  slices_S256x2016_o0_2010_S256x3 : S256x2016.Slices ![0, 2010] S256x3
  shapeCasts_S256x3_S256x1x3 : S256x3.ShapeCasts S256x1x3
  inb_S256x64x64_S256x1x3_0_60_61 : ∀ a, (![0, 60, 61] : Fin 3 → Nat) a + S256x1x3.size a ≤ S256x64x64.size a
  h_S256x1x3 : 0 < S256x1x3.numel
  shapeCasts_S256x3_S256x3x1 : S256x3.ShapeCasts S256x3x1
  inb_S256x64x64_S256x3x1_0_61_60 : ∀ a, (![0, 61, 60] : Fin 3 → Nat) a + S256x3x1.size a ≤ S256x64x64.size a
  h_S256x3x1 : 0 < S256x3x1.numel
  slices_S256x2016_o0_2013_S256x2 : S256x2016.Slices ![0, 2013] S256x2
  shapeCasts_S256x2_S256x1x2 : S256x2.ShapeCasts S256x1x2
  inb_S256x64x64_S256x1x2_0_61_62 : ∀ a, (![0, 61, 62] : Fin 3 → Nat) a + S256x1x2.size a ≤ S256x64x64.size a
  h_S256x1x2 : 0 < S256x1x2.numel
  shapeCasts_S256x2_S256x2x1 : S256x2.ShapeCasts S256x2x1
  inb_S256x64x64_S256x2x1_0_62_61 : ∀ a, (![0, 62, 61] : Fin 3 → Nat) a + S256x2x1.size a ≤ S256x64x64.size a
  h_S256x2x1 : 0 < S256x2x1.numel
  slices_S256x2016_o0_2015_S256x1 : S256x2016.Slices ![0, 2015] S256x1
  shapeCasts_S256x1_S256x1x1 : S256x1.ShapeCasts S256x1x1
  inb_S256x64x64_S256x1x1_0_62_63 : ∀ a, (![0, 62, 63] : Fin 3 → Nat) a + S256x1x1.size a ≤ S256x64x64.size a
  h_S256x1x1 : 0 < S256x1x1.numel
  inb_S256x64x64_S256x1x1_0_63_62 : ∀ a, (![0, 63, 62] : Fin 3 → Nat) a + S256x1x1.size a ≤ S256x64x64.size a
  dot_S256x64_S64x128_S256x128_1_0_0_1_n_n_wf : DotDims.WF S256x64 S64x128 S256x128 [1] [0] [0] [1] [] []
  dot_S256x128_S128x2016_S256x2016_1_0_0_1_n_n_wf : DotDims.WF S256x128 S128x2016 S256x2016 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S16384x64.size a
  hwx0_0 : ∀ i : grid0.Coords, EltTy.bits .f32 = 32 ∨ (Rect.block (s := S16384x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2016.size a ≤ S128x2016.size a
  hwx0_3 : ∀ i : grid0.Coords, EltTy.bits .bf16 = 32 ∨ (Rect.block (s := S128x2016) S128x2016.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2016.size a ≤ S1x2016.size a
  hwx0_4 : ∀ i : grid0.Coords, EltTy.bits .f32 = 32 ∨ (Rect.block (s := S1x2016) S1x2016.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64x64.size a ≤ S16384x64x64.size a
  hwx0_5 : ∀ i : grid0.Coords, EltTy.bits .f32 = 32 ∨ (Rect.block (s := S16384x64x64) S256x64x64.size (cc0_transform_5 i) (hinb0_5 i)).WholeWords (EltTy.packing .f32)

variable [Facts₀]

def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x2016_S256x2016_1_0_0_1_n_n : DotDims S256x128 S128x2016 S256x2016 where
  lhsContracting := [1]
  rhsContracting := [0]
  lhsNonContracting := [0]
  rhsNonContracting := [1]
  lhsBatch := []
  rhsBatch := []
  wf := dot_S256x128_S128x2016_S256x2016_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x2016.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2016.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x64 : Shape := ⟨2, ![16384, 64]⟩
abbrev S128x64 : Shape := ⟨2, ![128, 64]⟩
abbrev S128 : Shape := ⟨1, ![128]⟩
abbrev S2016x128 : Shape := ⟨2, ![2016, 128]⟩
abbrev S2016 : Shape := ⟨1, ![2016]⟩
abbrev S64x128 : Shape := ⟨2, ![64, 128]⟩
abbrev S16384x128 : Shape := ⟨2, ![16384, 128]⟩
abbrev S1x128 : Shape := ⟨2, ![1, 128]⟩
abbrev S128x2016 : Shape := ⟨2, ![128, 2016]⟩
abbrev S16384x2016 : Shape := ⟨2, ![16384, 2016]⟩
abbrev S1x2016 : Shape := ⟨2, ![1, 2016]⟩
abbrev S_ : Shape := ⟨0, ![]⟩
abbrev S16384x64x64 : Shape := ⟨3, ![16384, 64, 64]⟩
abbrev S2016x1 : Shape := ⟨2, ![2016, 1]⟩
abbrev S2016x2 : Shape := ⟨2, ![2016, 2]⟩

abbrev nBuf : Space → Nat
  | .hbm => 36
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S128x64, .f32⟩
  | .hbm, ⟨2, _⟩ => ⟨S128, .f32⟩
  | .hbm, ⟨3, _⟩ => ⟨S2016x128, .f32⟩
  | .hbm, ⟨4, _⟩ => ⟨S2016, .f32⟩
  | .hbm, ⟨5, _⟩ => ⟨S2016, .i32⟩
  | .hbm, ⟨6, _⟩ => ⟨S2016, .i1⟩
  | .hbm, ⟨7, _⟩ => ⟨S2016, .i32⟩
  | .hbm, ⟨8, _⟩ => ⟨S2016, .i1⟩
  | .hbm, ⟨9, _⟩ => ⟨S64x128, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S128x2016, .f32⟩
  | .hbm, ⟨16, _⟩ => ⟨S16384x2016, .f32⟩
  | .hbm, ⟨17, _⟩ => ⟨S1x2016, .f32⟩
  | .hbm, ⟨18, _⟩ => ⟨S16384x2016, .f32⟩
  | .hbm, ⟨19, _⟩ => ⟨S16384x2016, .f32⟩
  | .hbm, ⟨20, _⟩ => ⟨S_, .f32⟩
  | .hbm, ⟨21, _⟩ => ⟨S16384x64x64, .f32⟩
  | .hbm, ⟨22, _⟩ => ⟨S_, .i32⟩
  | .hbm, ⟨23, _⟩ => ⟨S2016, .i32⟩
  | .hbm, ⟨24, _⟩ => ⟨S2016, .i32⟩
  | .hbm, ⟨25, _⟩ => ⟨S2016, .i32⟩
  | .hbm, ⟨26, _⟩ => ⟨S_, .i32⟩
  | .hbm, ⟨27, _⟩ => ⟨S2016, .i32⟩
  | .hbm, ⟨28, _⟩ => ⟨S2016, .i32⟩
  | .hbm, ⟨29, _⟩ => ⟨S2016, .i32⟩
  | .hbm, ⟨30, _⟩ => ⟨S2016x1, .i32⟩
  | .hbm, ⟨31, _⟩ => ⟨S2016x1, .i32⟩
  | .hbm, ⟨32, _⟩ => ⟨S2016x2, .i32⟩
  | .hbm, ⟨33, _⟩ => ⟨S16384x64x64, .f32⟩
  | .hbm, ⟨34, _⟩ => ⟨S16384x64x64, .f32⟩
  | .hbm, ⟨35, _⟩ => ⟨S16384x64x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S2016x128_S128x2016_1_0 : S2016x128.Transposes [1, 0] S128x2016
  bcast_S2016_S1x2016_1 : S2016.BroadcastsInDim S1x2016 (![1] : Fin 1 → Fin S1x2016.rank)
  bcast_S1x2016_S16384x2016_0_1 : S1x2016.BroadcastsInDim S16384x2016 (![0, 1] : Fin 2 → Fin S16384x2016.rank)
  bcast_S_S16384x64x64 : S_.BroadcastsInDim S16384x64x64 (![] : Fin 0 → Fin S16384x64x64.rank)
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  transposes_S16384x64x64_S16384x64x64_0_2_1 : S16384x64x64.Transposes [0, 2, 1] S16384x64x64
  dot_S16384x64_S64x128_S16384x128_1_0_0_1_n_n_wf : DotDims.WF S16384x64 S64x128 S16384x128 [1] [0] [0] [1] [] []
  dot_S16384x128_S128x2016_S16384x2016_1_0_0_1_n_n_wf : DotDims.WF S16384x128 S128x2016 S16384x2016 [1] [0] [0] [1] [] []
  scatter_S16384x64x64_S2016x2_S16384x2016_0_12_12_1_wf : ScatterDims.WF S16384x64x64 S2016x2 S16384x2016 [0] [1, 2] [1, 2] 1

variable [Facts₀]

def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x2016_S16384x2016_1_0_0_1_n_n : DotDims S16384x128 S128x2016 S16384x2016 where
  lhsContracting := [1]
  rhsContracting := [0]
  lhsNonContracting := [0]
  rhsNonContracting := [1]
  lhsBatch := []
  rhsBatch := []
  wf := dot_S16384x128_S128x2016_S16384x2016_1_0_0_1_n_n_wf
def scatter_S16384x64x64_S2016x2_S16384x2016_0_12_12_1 : ScatterDims S16384x64x64 S2016x2 S16384x2016 where
  updateWindowDims := [0]
  insertedWindowDims := [1, 2]
  scatterDimsToOperandDims := [1, 2]
  indexVectorDim := 1
  wf := scatter_S16384x64x64_S2016x2_S16384x2016_0_12_12_1_wf

class Facts : Prop extends Facts₀ where

variable [Facts]
-- ==== Proof.Spec.lean ====
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx
open scoped BigOperators

/-- Where row `i`'s strictly-upper entries start in the row-by-row list: `63 + 62 + … + (64 - i)`. -/
def off (i : Nat) : Nat := i * (127 - i) / 2

/-- The place of entry `(i, j)`, `i < j`, in the list. -/
def kk (i j : Nat) : Nat := off i + (j - i - 1)

theorem kk_lt_fin : ∀ i j : Fin 64, i.val < j.val → kk i.val j.val < 2016 := by decide

theorem kk_lt {i j : Nat} (hij : i < j) (hj : j < 64) : kk i j < 2016 :=
  kk_lt_fin ⟨i, by omega⟩ ⟨j, hj⟩ hij

theorem kk_row (i q : Nat) : kk i (i + 1 + q) = off i + q := by
  unfold kk; congr 1; omega

/-- A two-layer perceptron on one row `xr`: entry `k` of `tanh (xr · w1ᵀ + b1) · w2ᵀ + b2`. -/
def mlp (xr : Fin 64 → EReal) (w1 : Fin 128 → Fin 64 → EReal) (b1 : Fin 128 → EReal) (w2 : Fin 2016 → Fin 128 → EReal)
    (b2 : Fin 2016 → EReal) (k : Fin 2016) : EReal :=
  (∑ h : Fin 128, Ideal.tanh ((∑ e : Fin 64, xr e * w1 h e) + b1 h) * w2 k h) + b2 k

/-- The skew-symmetric matrix whose strictly-upper entries are each row's list `P r`. -/
def skew {B : Nat} (P : Fin B → Fin 2016 → EReal) : (⟨3, ![B, 64, 64]⟩ : Shape).Idx → EReal := fun y =>
  if h : (y 1).val < (y 2).val then P (y 0) ⟨kk (y 1).val (y 2).val, kk_lt h (y 2).isLt⟩
  else if h' : (y 2).val < (y 1).val then 0 - P (y 0) ⟨kk (y 2).val (y 1).val, kk_lt h' (y 1).isLt⟩
  else 0

/-- The result: the skew-symmetric matrices of the perceptron's outputs. -/
def G (x : (⟨2, ![16384, 64]⟩ : Shape).Idx → EReal) (W1 : (⟨2, ![128, 64]⟩ : Shape).Idx → EReal)
    (b1 : (⟨1, ![128]⟩ : Shape).Idx → EReal) (W2 : (⟨2, ![2016, 128]⟩ : Shape).Idx → EReal)
    (b2 : (⟨1, ![2016]⟩ : Shape).Idx → EReal) : (⟨3, ![16384, 64, 64]⟩ : Shape).Idx → EReal :=
  skew fun r => mlp (fun e => x (ix2 r e)) (fun h e => W1 (ix2 h e)) (fun h => b1 (ix1 h)) (fun k h => W2 (ix2 k h))
    (fun k => b2 (ix1 k))

variable {B : Nat} (P : Fin B → Fin 2016 → EReal) (y : (⟨3, ![B, 64, 64]⟩ : Shape).Idx)

theorem skew_of_lt (h : (y 1).val < (y 2).val) : skew P y = P (y 0) ⟨kk (y 1).val (y 2).val, kk_lt h (y 2).isLt⟩ :=
  dif_pos h

theorem skew_of_gt (h : (y 2).val < (y 1).val) :
    skew P y = 0 - P (y 0) ⟨kk (y 2).val (y 1).val, kk_lt h (y 1).isLt⟩ :=
  (dif_neg (Nat.lt_asymm h)).trans (dif_pos h)

theorem skew_of_eq (h : (y 1).val = (y 2).val) : skew P y = 0 :=
  (dif_neg (by omega)).trans (dif_neg (by omega))

/-- An entry depends only on its own row's list and its position in the matrix. -/
theorem skew_congr {B' : Nat} (P' : Fin B' → Fin 2016 → EReal) (y' : (⟨3, ![B', 64, 64]⟩ : Shape).Idx)
    (hP : P (y 0) = P' (y' 0)) (h1 : (y 1).val = (y' 1).val) (h2 : (y 2).val = (y' 2).val) : skew P y = skew P' y' := by
  unfold skew
  simp only [hP, h1, h2]

end Cert.Spec

end
-- ==== Proof.KSlab.lean ====
import proofs.«142409_j54039278518768_1_alg».proof.Proof.Spec
import Idealize.ShloMosaic.Lib.Pipeline.CanonAppend
import Idealize.ShloMosaic.Lib.ValueLayout
import Idealize.ShloMosaic.PureOps.Ideal.Laws

noncomputable section

namespace Cert.KSlab

open Idealize.ShloMosaic Idealize.ShloMosaic.ValueIdx

abbrev SB : Shape := ⟨3, ![256, 64, 64]⟩
abbrev SP : Shape := ⟨2, ![256, 2016]⟩

section Casts
variable {α : Type} {a b : ℕ} (x : (⟨2, ![a, b]⟩ : Shape).Idx → α)

theorem shapeCast_ab_a1b_apply (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    rw [Shape.rowMajor_val_three, Shape.rowMajor_val_two]
    show i.val * b + j.val = (i.val * 1 + u.val) * b + j.val
    rw [Fin.val_eq_zero u, Nat.mul_one, Nat.add_zero])

theorem shapeCast_ab_ab1_apply (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_three, Shape.rowMajor_val_two]
    show i.val * b + j.val = (i.val * b + j.val) * 1 + u.val
    rw [Fin.val_eq_zero u, Nat.mul_one, Nat.add_zero])

end Casts

theorem casts_a1b (a b : ℕ) : (⟨2, ![a, b]⟩ : Shape).ShapeCasts ⟨3, ![a, 1, b]⟩ := by
  show ∏ x : Fin 3, (![a, 1, b] : Fin 3 → ℕ) x = ∏ x : Fin 2, (![a, b] : Fin 2 → ℕ) x
  simp [Fin.prod_univ_succ]

theorem casts_ab1 (a b : ℕ) : (⟨2, ![a, b]⟩ : Shape).ShapeCasts ⟨3, ![a, b, 1]⟩ := by
  show ∏ x : Fin 3, (![a, b, 1] : Fin 3 → ℕ) x = ∏ x : Fin 2, (![a, b] : Fin 2 → ℕ) x
  simp [Fin.prod_univ_succ]

/-- Rank-3 bounds from a bound on each axis. -/
theorem inb3 {o z : Fin 3 → Nat} (h0 : o 0 + z 0 ≤ 256) (h1 : o 1 + z 1 ≤ 64) (h2 : o 2 + z 2 ≤ 64) :
    ∀ a, o a + z a ≤ SB.size a
  | ⟨0, _⟩ => h0
  | ⟨1, _⟩ => h1
  | ⟨2, _⟩ => h2

theorem mem_unit3 {o z : Fin 3 → Nat} {inb} (y : SB.Idx) : y ∈ (Rect.unit (s := SB) o z inb).set ↔
    (o 0 ≤ (y 0).val ∧ (y 0).val < o 0 + z 0) ∧ (o 1 ≤ (y 1).val ∧ (y 1).val < o 1 + z 1)
      ∧ (o 2 ≤ (y 2).val ∧ (y 2).val < o 2 + z 2) := by
  rw [Rect.mem_set_unit]
  exact ⟨fun h => ⟨h 0, h 1, h 2⟩, fun h a => match a with | ⟨0, _⟩ => h.1 | ⟨1, _⟩ => h.2.1 | ⟨2, _⟩ => h.2.2⟩

variable (P : FVec Ideal SP .f32) (i : Fin 63)

/-- The block's lists, row by row. -/
abbrev rows : Fin 256 → Fin 2016 → EReal := fun r k => P (ix2 r k)

/-- Row `i`'s `63 - i` entries end inside the list. -/
theorem off_le : Spec.off i + (63 - i) ≤ 2016 := by
  have h := Spec.kk_lt (i := i) (j := 63) i.isLt (by decide)
  unfold Spec.kk at h
  omega

theorem slices : SP.Slices ![0, Spec.off i] ⟨2, ![256, 63 - i]⟩ :=
  ⟨rfl, fun a => match a with | ⟨0, _⟩ => Nat.le_refl 256 | ⟨1, _⟩ => off_le i⟩

/-- Columns `off i …` of `P`: row `i`'s entries. -/
def seg : FVec Ideal ⟨2, ![256, 63 - i]⟩ .f32 := extractStridedSlice ⟨2, ![256, 63 - i]⟩ ![0, Spec.off i] P (slices i)

/-- The store of row `i`'s entries right of the diagonal in row `i`. -/
def row : View.Piece (Elt Ideal) SB .f32 :=
  ⟨Rect.unit (s := SB) ![0, i, i + 1] (⟨3, ![256, 1, 63 - i]⟩ : Shape).size
      (inb3 (Nat.le_refl 256) (by show i.val + 1 ≤ 64; omega) (by show i.val + 1 + (63 - i.val) ≤ 64; omega)),
    shapeCast ⟨3, ![256, 1, 63 - i]⟩ (seg P i) (casts_a1b _ _)⟩

/-- The store of their negatives below the diagonal in column `i`. -/
def col : View.Piece (Elt Ideal) SB .f32 :=
  ⟨Rect.unit (s := SB) ![0, i + 1, i] (⟨3, ![256, 63 - i, 1]⟩ : Shape).size
      (inb3 (Nat.le_refl 256) (by show i.val + 1 + (63 - i.val) ≤ 64; omega) (by show i.val + 1 ≤ 64; omega)),
    shapeCast ⟨3, ![256, 63 - i, 1]⟩
      (subf (broadcast ⟨2, ![256, 63 - i]⟩ (Scalar.ofBits .f32 0x00000000#32 : Ideal .f32)) (seg P i))
      (casts_ab1 _ _)⟩

/-- Entry `q` of row `i`'s segment is the list's entry at the place of `(i, i + 1 + q)`. -/
theorem seg_apply (r y0 : Fin 256) (u : Fin 1) (q : Fin (63 - i)) {a c : Nat} (hac : a < c) (hc : c < 64)
    (h0 : y0.val = 0 + 1 * r.val) (ha : a = i + 1 * u.val) (hc' : c = i + 1 + 1 * q.val) :
    seg P i (ix2 r q) = P (ix2 y0 ⟨Spec.kk a c, Spec.kk_lt hac hc⟩) :=
  extractStridedSlice_apply _ P _ _ _ fun
    | ⟨0, _⟩ => by show y0.val = 0 + r.val; omega
    | ⟨1, _⟩ => by
      show Spec.kk a c = Spec.off i + q.val
      rw [← Spec.kk_row, ha, hc', Fin.val_eq_zero u, Nat.mul_zero, Nat.add_zero, Nat.one_mul]

theorem row_eq (x : (row P i).1.shape.Idx) : (row P i).2 x = Spec.skew (rows P) ((row P i).1.emb x) := by
  obtain ⟨r, u, q, rfl⟩ : ∃ (r : Fin 256) (u : Fin 1) (q : Fin (63 - i)), x = ix3 r u q := ⟨x 0, x 1, x 2, eq_ix3 x⟩
  have hlt : i.val + 1 * u.val < i.val + 1 + 1 * q.val := by omega
  show shapeCast _ (seg P i) _ (ix3 r u q) = _
  rw [shapeCast_ab_a1b_apply, Spec.skew_of_lt (rows P) _ hlt]
  exact seg_apply P i r _ u q hlt (by omega) rfl rfl rfl

theorem col_eq (x : (col P i).1.shape.Idx) : (col P i).2 x = Spec.skew (rows P) ((col P i).1.emb x) := by
  obtain ⟨r, q, u, rfl⟩ : ∃ (r : Fin 256) (q : Fin (63 - i)) (u : Fin 1), x = ix3 r q u := ⟨x 0, x 1, x 2, eq_ix3 x⟩
  have hlt : i.val + 1 * u.val < i.val + 1 + 1 * q.val := by omega
  show shapeCast _ (subf _ (seg P i)) _ (ix3 r q u) = _
  rw [shapeCast_ab_ab1_apply, Spec.skew_of_gt (rows P) _ hlt]
  show (Scalar.ofBits .f32 0x00000000#32 : Ideal .f32) - seg P i (ix2 r q) = _
  rw [show (Scalar.ofBits .f32 0x00000000#32 : Ideal .f32) = 0 from Ideal.ofBits_zero_f32]
  exact congrArg ((0 : EReal) - ·) (seg_apply P i r _ u q hlt (by omega) rfl rfl rfl)

theorem row_mem (y : SB.Idx) : y ∈ (row P i).1.set ↔ (y 1).val = i ∧ i.val < (y 2).val := by
  have h0 : (y 0).val < 256 := (y 0).isLt
  have h2 : (y 2).val < 64 := (y 2).isLt
  unfold row
  rw [mem_unit3]
  show (0 ≤ (y 0).val ∧ (y 0).val < 0 + 256) ∧ (i.val ≤ (y 1).val ∧ (y 1).val < i.val + 1)
    ∧ (i.val + 1 ≤ (y 2).val ∧ (y 2).val < i.val + 1 + (63 - i.val)) ↔ _
  omega

theorem col_mem (y : SB.Idx) : y ∈ (col P i).1.set ↔ (y 2).val = i ∧ i.val < (y 1).val := by
  have h0 : (y 0).val < 256 := (y 0).isLt
  have h1 : (y 1).val < 64 := (y 1).isLt
  unfold col
  rw [mem_unit3]
  show (0 ≤ (y 0).val ∧ (y 0).val < 0 + 256) ∧ (i.val + 1 ≤ (y 1).val ∧ (y 1).val < i.val + 1 + (63 - i.val))
    ∧ (i.val ≤ (y 2).val ∧ (y 2).val < i.val + 1) ↔ _
  omega

/-- The 126 stores, last made first. -/
def slabs : List (View.Piece (Elt Ideal) SB .f32) := (List.finRange 63).reverse.flatMap fun i => [col P i, row P i]

theorem mem_slabs {p : View.Piece (Elt Ideal) SB .f32} : p ∈ slabs P ↔ ∃ i, p = col P i ∨ p = row P i := by
  simp only [slabs, List.mem_flatMap, List.mem_reverse, List.mem_finRange, true_and, List.mem_cons, List.not_mem_nil, or_false]

/-- Stores none of which covers `y` leave there what the earlier stores left. -/
theorem canon_append_of_not_mem (L' : List (View.Piece (Elt Ideal) SB .f32)) (y : SB.Idx) :
    ∀ L : List (View.Piece (Elt Ideal) SB .f32), (∀ p ∈ L, y ∉ p.1.set) → View.canon (L ++ L') y = View.canon L' y
  | [], _ => rfl
  | p :: L, h => by
    rw [List.cons_append, View.canon_cons_of_not_mem _ _ (h p List.mem_cons_self)]
    exact canon_append_of_not_mem L' y L fun q hq => h q (List.mem_cons_of_mem _ hq)

theorem slabs_eq : ∀ p ∈ slabs P, ∀ x, p.2 x = Spec.skew (rows P) (p.1.emb x) := fun p hp => by
  obtain ⟨i, rfl | rfl⟩ := (mem_slabs P).mp hp
  exacts [col_eq P i, row_eq P i]

/-- Every off-diagonal entry is in its row's or its column's store, the diagonal in none: zeros stay there. -/
theorem canon_eq_skew {o : Fin 3 → Nat} (ho : o = fun _ => 0) (inb) (z : SB.Idx → Ideal .f32) (hz : ∀ y, z y = 0) :
    View.canon (slabs P ++ [⟨Rect.unit o SB.size inb, z⟩]) = Spec.skew (rows P) := by
  funext y
  have h1 : (y 1).val < 64 := (y 1).isLt
  have h2 : (y 2).val < 64 := (y 2).isLt
  rcases Nat.lt_trichotomy (y 1).val (y 2).val with h | h | h
  · exact View.canon_append_of_pieces _ _ _ (slabs_eq P) y
      ⟨row P ⟨(y 1).val, by omega⟩, (mem_slabs P).mpr ⟨_, .inr rfl⟩, (row_mem P _ y).mpr ⟨rfl, h⟩⟩
  · rw [canon_append_of_not_mem _ y _ fun p hp => by
        obtain ⟨i, rfl | rfl⟩ := (mem_slabs P).mp hp
        · rw [col_mem]; omega
        · rw [row_mem]; omega,
      View.canon_unit_zero ho, hz, Spec.skew_of_eq (rows P) y h]
  · exact View.canon_append_of_pieces _ _ _ (slabs_eq P) y
      ⟨col P ⟨(y 2).val, by omega⟩, (mem_slabs P).mpr ⟨_, .inl rfl⟩, (col_mem P _ y).mpr ⟨rfl, h⟩⟩

end Cert.KSlab

end
-- ==== Proof.KParams.lean ====
import proofs.«142409_j54039278518768_1_alg».proof.Proof.Gen.KernelIdeal.Skeleton
import proofs.«142409_j54039278518768_1_alg».proof.Proof.Spec
import Idealize.ShloMosaic.Lib.StackMember
import Idealize.ShloMosaic.Lib.ValueLayout
import Idealize.ShloMosaic.PureOps.Ideal.Laws

noncomputable section

namespace Cert.KernelIdeal.KParams

open Cert.KernelIdeal Cert.KernelIdeal.Gen Idealize.ShloMosaic Idealize.ShloMosaic.TcCoe Idealize.ShloMosaic.ValueIdx

/-- A matrix product into a zero accumulator is the plain sum over the contracted axis. -/
theorem matmul_zero_apply {M K N : Nat} {φ₁ φ₂ : FTy} (l : FVec Ideal ⟨2, ![M, K]⟩ φ₁) (r : FVec Ideal ⟨2, ![K, N]⟩ φ₂)
    (i : Fin M) (j : Fin N) :
    FloatOps.matmul (DotDims.plain M K N) none l r (constant ⟨2, ![M, N]⟩ .f32 0x00000000#32) (ix2 i j)
      = ∑ k : Fin K, l (ix2 i k) * r (ix2 k j) :=
  (Ideal.matmul_constant_zero_apply _ none l r _).trans
    ((Ideal.dotGeneral_apply _ none _ l r _).symm.trans (StackMember.dotGeneral_plain_apply none l r i j))

variable (v0 : Vec Ideal S256x64 .f32) (v2 : Vec Ideal S64x128 .bf16) (v5 : Vec Ideal S1x128 .f32)
  (v11 : Vec Ideal S128x2016 .bf16) (v14 : Vec Ideal S1x2016 .f32) (r : Fin 256)

/-- The block's list at `(r, k)` is the perceptron on row `r`, the weights read transposed and the biases as rows. -/
theorem pay5_apply (k : Fin 2016) : k0_pay5 (F := Ideal) v0 v2 v5 v11 v14 (ix2 r k)
    = Spec.mlp (fun e => v0 (ix2 r e)) (fun h e => v2 (ix2 e h)) (fun h => v5 (ix2 0 h)) (fun k h => v11 (ix2 h k))
        (fun k => v14 (ix2 0 k)) k := by
  unfold k0_pay5 Spec.mlp
  rw [addf_apply, shapeCast_self v11, shapeCast_self v14, broadcastTo_1b_ab_apply]
  refine congrArg (· + v14 (ix2 0 k)) ((matmul_zero_apply (φ₁ := .bf16) (φ₂ := .bf16) _ _ r k).trans (Finset.sum_congr rfl fun h _ => ?_))
  refine congrArg (· * v11 (ix2 h k)) ?_
  rw [truncf_apply]
  refine congrArg Ideal.tanh ?_
  rw [addf_apply, shapeCast_self, shapeCast_self, broadcastTo_1b_ab_apply]
  exact congrArg (· + v5 (ix2 0 h)) (matmul_zero_apply (φ₁ := .bf16) (φ₂ := .bf16) _ _ r h)

end Cert.KernelIdeal.KParams

end
-- ==== Proof.KPieces.lean ====
import proofs.«142409_j54039278518768_1_alg».proof.Proof.Gen.KernelIdeal.Frame
import proofs.«142409_j54039278518768_1_alg».proof.Proof.KSlab
import proofs.«142409_j54039278518768_1_alg».proof.Proof.KParams

noncomputable section

namespace Cert.KernelIdeal.KPieces

open Cert.KernelIdeal Cert.KernelIdeal.Gen Idealize.ShloMosaic Idealize.ShloMosaic.TcCoe Idealize.ShloMosaic.ValueIdx Idealize.SL.Sem
open Idealize.ShloMosaic.Tactic

variable (c : Dev nD) (i : grid0.Coords) (arg1 : Memref sig .tc .vmem S256x64 .f32) (harg1 : arg1.IsWhole) (arg2 : Memref sig .tc .vmem S64x128 .bf16) (harg2 : arg2.IsWhole) (arg3 : Memref sig .tc .vmem S1x128 .f32) (harg3 : arg3.IsWhole) (arg4 : Memref sig .tc .vmem S128x2016 .bf16) (harg4 : arg4.IsWhole) (arg5 : Memref sig .tc .vmem S1x2016 .f32) (harg5 : arg5.IsWhole) (arg6 : Memref sig .tc .vmem S256x64x64 .f32) (harg6 : arg6.IsWhole)
  (x0 : Vec Ideal S256x64 .f32) (x1 : Vec Ideal S64x128 .bf16) (x2 : Vec Ideal S1x128 .f32) (x3 : Vec Ideal S128x2016 .bf16) (x4 : Vec Ideal S1x2016 .f32)

/-- The body's stores, last made first: the 126 row and column stores of its list, then zeros over the block. -/
theorem pieces_eq :
    (kernelRun0_A (F := Ideal) c i arg1 harg1 arg2 harg2 arg3 harg3 arg4 harg4 arg5 harg5 arg6 harg6 x0 x1 x2 x3 x4).1
      = KSlab.slabs (kernelRun0_A.sl.r (F := Ideal) c arg1 harg1 arg2 harg2 arg3 harg3 arg4 harg4 arg5 harg5 x0 x1 x2 x3 x4)
        ++ [⟨Rect.unit (s := S256x64x64) ![0, 0, 0] S256x64x64.size inb_S256x64x64_S256x64x64_0_0_0, k0_pay6 (F := Ideal)⟩] := by
  sl_kernel_rfl

theorem params_eq :
    kernelRun0_A.sl.r (F := Ideal) c arg1 harg1 arg2 harg2 arg3 harg3 arg4 harg4 arg5 harg5 x0 x1 x2 x3 x4
      = k0_pay5 (F := Ideal) x0 x1 x2 x3 x4 := by
  have hz : (![0, 0] : Fin 2 → Nat) = fun _ => 0 := by funext a; fin_cases a <;> rfl
  unfold kernelRun0_A.sl.r
  simp only [View.readAt_eq_ld, harg1.read_unread, harg2.read_unread, harg3.read_unread, harg4.read_unread,
    harg5.read_unread, View.ld_unit_zero (S := S256x64) hz, View.ld_unit_zero (S := S64x128) hz,
    View.ld_unit_zero (S := S1x128) hz, View.ld_unit_zero (S := S128x2016) hz, View.ld_unit_zero (S := S1x2016) hz]

/-- The output block is the skew-symmetric matrices of the perceptron's outputs on the block's rows. -/
theorem out_block :
    out0_A_5 (F := Ideal) c i arg1 harg1 arg2 harg2 arg3 harg3 arg4 harg4 arg5 harg5 arg6 harg6 x0 x1 x2 x3 x4
      = Spec.skew fun r => Spec.mlp (fun e => x0 (ix2 r e)) (fun h e => x1 (ix2 e h)) (fun h => x2 (ix2 0 h))
          (fun k h => x3 (ix2 h k)) (fun k => x4 (ix2 0 k)) := by
  unfold out0_A_5
  rw [View.read_writes_junk_eq_canon, pieces_eq, params_eq]
  exact (KSlab.canon_eq_skew _ (by funext a; fin_cases a <;> rfl) _ k0_pay6 fun _ => Ideal.ofBits_zero_f32).trans
    (congrArg Spec.skew (funext fun r => funext fun k => KParams.pay5_apply x0 x1 x2 x3 x4 r k))

end Cert.KernelIdeal.KPieces

end
-- ==== Proof.KValue.lean ====
import proofs.«142409_j54039278518768_1_alg».proof.Proof.Gen.KernelIdeal.Value
import proofs.«142409_j54039278518768_1_alg».proof.Proof.KPieces
import Idealize.ShloMosaic.Lib.StableHlo.Run

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD) (t : Fin cfg0.N)

/-- The argument arrays `x`, `W1`, `b1`, `W2`, `b2`, and grid point `t`'s blocks. -/
abbrev xM : Vec Ideal S16384x64 .f32 := m ((c.tc : Thread nD τ).loc main_arg0)
abbrev W1M : Vec Ideal S128x64 .f32 := m ((c.tc : Thread nD τ).loc main_arg1)
abbrev b1M : Vec Ideal S128 .f32 := m ((c.tc : Thread nD τ).loc main_arg2)
abbrev W2M : Vec Ideal S2016x128 .f32 := m ((c.tc : Thread nD τ).loc main_arg3)
abbrev b2M : Vec Ideal S2016 .f32 := m ((c.tc : Thread nD τ).loc main_arg4)
abbrev xblk : Vec Ideal S256x64 .f32 := iblk m c 0 t
abbrev w1blk : Vec Ideal S64x128 .bf16 := iblk m c 1 t
abbrev b1blk : Vec Ideal S1x128 .f32 := iblk m c 2 t
abbrev w2blk : Vec Ideal S128x2016 .bf16 := iblk m c 3 t
abbrev b2blk : Vec Ideal S1x2016 .f32 := iblk m c 4 t

/-- Point `t` reads block `t` of `x` and writes block `t` of the result; the other blocks are whole arrays. -/
theorem idx_facts : ∀ t : Fin cfg0.N, win0_0.index t = ![t.val, 0] ∧ (∀ a, win0_1.index t a = 0)
    ∧ (∀ a, win0_2.index t a = 0) ∧ (∀ a, win0_3.index t a = 0) ∧ (∀ a, win0_4.index t a = 0)
    ∧ win0_5.index t = ![t.val, 0, 0] :=
  (by decide +kernel : ∀ t : Fin grid0.N, _)

theorem x_apply (r : Fin 256) (e : Fin 64) (R : Fin 16384) (hR : R.val = t.val * 256 + r.val) :
    xblk m c t (ix2 r e) = xM m c (ix2 R e) := by
  show V m c main_arg0 (((cfg0.win 0).blk t).view.emb (ix2 r e)) = _
  rw [V_main_arg0]
  refine congrArg (xM m c) (funext fun a => Fin.ext ((win0_0.rect_emb_val t _ a).trans ?_))
  rw [(idx_facts t).1]
  match a with
  | ⟨0, _⟩ => exact hR.symm
  | ⟨1, _⟩ => exact Nat.zero_add _

/-- The weight blocks are `W1` and `W2` transposed. -/
theorem w1_apply (e : Fin 64) (h : Fin 128) : w1blk m c t (ix2 e h) = W1M m c (ix2 h e) := by
  have hV : (V m c main_v1 : Vec Ideal S64x128 .bf16)
      = truncf (F := Ideal) .bf16 (transpose S64x128 [1, 0] (W1M m c) transposes_S128x64_S64x128_1_0) bitsLt_bf16_f32 := by
    dsimp only [Gen.V, Gen.hostOps0]; after_results
  show V m c main_v1 (((cfg0.win 1).blk t).view.emb (ix2 e h)) = _
  rw [show ((cfg0.win 1).blk t).view.emb (ix2 e h) = ix2 e h from
    funext fun a => Fin.ext (win0_1.rect_emb_val_of_index_zero t a ((idx_facts t).2.1 a) _), hV, truncf_apply]
  exact transpose_ix2_apply _ _ e h

theorem w2_apply (h : Fin 128) (k : Fin 2016) : w2blk m c t (ix2 h k) = W2M m c (ix2 k h) := by
  have hV : (V m c main_v3 : Vec Ideal S128x2016 .bf16)
      = truncf (F := Ideal) .bf16 (transpose S128x2016 [1, 0] (W2M m c) transposes_S2016x128_S128x2016_1_0) bitsLt_bf16_f32 := by
    dsimp only [Gen.V, Gen.hostOps0]; after_results
  show V m c main_v3 (((cfg0.win 3).blk t).view.emb (ix2 h k)) = _
  rw [show ((cfg0.win 3).blk t).view.emb (ix2 h k) = ix2 h k from
    funext fun a => Fin.ext (win0_3.rect_emb_val_of_index_zero t a ((idx_facts t).2.2.2.1 a) _), hV, truncf_apply]
  exact transpose_ix2_apply _ _ h k

/-- The bias blocks are `b1` and `b2` as rows. -/
theorem b1_apply (h : Fin 128) : b1blk m c t (ix2 0 h) = b1M m c (ix1 h) := by
  have hV : (V m c main_v4 : Vec Ideal S1x128 .f32) = shapeCast S1x128 (b1M m c) shapeCasts_S128_S1x128 := by
    dsimp only [Gen.V, Gen.hostOps0]; after_results; rfl
  show V m c main_v4 (((cfg0.win 2).blk t).view.emb (ix2 0 h)) = _
  rw [show ((cfg0.win 2).blk t).view.emb (ix2 0 h) = ix2 0 h from
    funext fun a => Fin.ext (win0_2.rect_emb_val_of_index_zero t a ((idx_facts t).2.2.1 a) _), hV]
  exact shapeCast_a_1a_apply _ _ 0 h

theorem b2_apply (k : Fin 2016) : b2blk m c t (ix2 0 k) = b2M m c (ix1 k) := by
  have hV : (V m c main_v5 : Vec Ideal S1x2016 .f32) = shapeCast S1x2016 (b2M m c) shapeCasts_S2016_S1x2016 := by
    dsimp only [Gen.V, Gen.hostOps0]; after_results; rfl
  show V m c main_v5 (((cfg0.win 4).blk t).view.emb (ix2 0 k)) = _
  rw [show ((cfg0.win 4).blk t).view.emb (ix2 0 k) = ix2 0 k from
    funext fun a => Fin.ext (win0_4.rect_emb_val_of_index_zero t a ((idx_facts t).2.2.2.2.1 a) _), hV]
  exact shapeCast_a_1a_apply _ _ 0 k

/-- Point `t` writes back rows `256 t …` of the result: the perceptron reads only its own row. -/
theorem flushed_eq : (dats m 0 c).flushed 5 t
    = ((cfg0.win 5).blk t).view.read (Elt Ideal) (Spec.G (xM m c) (W1M m c) (b1M m c) (W2M m c) (b2M m c)) := by
  rw [Value.flushed5_A, KPieces.out_block]
  funext y
  obtain ⟨r, i, j, rfl⟩ : ∃ (r : Fin 256) (i j : Fin 64), y = ix3 r i j := ⟨y 0, y 1, y 2, eq_ix3 y⟩
  have h5 := (idx_facts t).2.2.2.2.2
  have e1 := win0_5.rect_emb_val t (ix3 r i j)
  rw [h5] at e1
  show Spec.skew (fun r => Spec.mlp (fun e => xblk m c t (ix2 r e)) (fun h e => w1blk m c t (ix2 e h))
      (fun h => b1blk m c t (ix2 0 h)) (fun k h => w2blk m c t (ix2 h k)) fun k => b2blk m c t (ix2 0 k)) (ix3 r i j)
    = Spec.G (xM m c) (W1M m c) (b1M m c) (W2M m c) (b2M m c) (((cfg0.win 5).blk t).view.emb (ix3 r i j))
  refine Spec.skew_congr _ (ix3 r i j) _ (((cfg0.win 5).blk t).view.emb (ix3 r i j)) ?_
    ((e1 1).trans (Nat.zero_add _)).symm ((e1 2).trans (Nat.zero_add _)).symm
  show Spec.mlp _ _ _ _ _ = Spec.mlp _ _ _ _ _
  simp only [x_apply m c t r _ _ (e1 0), w1_apply, b1_apply, w2_apply, b2_apply]
  rfl

/-- Every row `b` of the result lies in block `b / 256`. -/
theorem covered (i : S16384x64x64.Idx) :
    ∃ t : Fin cfg0.N, (cfg0.win 5).flush t = true ∧ i ∈ ((cfg0.win 5).blk t).view.set := by
  have h0 : (i 0).val < 16384 := (i 0).isLt
  have h1 : (i 1).val < 64 := (i 1).isLt
  have h2 : (i 2).val < 64 := (i 2).isLt
  have hN : cfg0.N = 64 := N_0
  obtain ⟨t, ht⟩ : ∃ t : Fin cfg0.N, t.val = (i 0).val / 256 := ⟨⟨_, by omega⟩, rfl⟩
  refine ⟨t, flush0_5 t, ?_⟩
  show i ∈ ((View.whole main_v6).slice (win0_5.rect t)).set
  rw [View.set_slice_whole, Rect.mem_set_unit]
  intro a
  show win0_5.index t a * S256x64x64.size a ≤ (i a).val
    ∧ (i a).val < win0_5.index t a * S256x64x64.size a + S256x64x64.size a
  rw [(idx_facts t).2.2.2.2.2]
  match a with
  | ⟨0, _⟩ => show t.val * 256 ≤ (i 0).val ∧ (i 0).val < t.val * 256 + 256; omega
  | ⟨1, _⟩ => show 0 * 64 ≤ (i 1).val ∧ (i 1).val < 0 * 64 + 64; omega
  | ⟨2, _⟩ => show 0 * 64 ≤ (i 2).val ∧ (i 2).val < 0 * 64 + 64; omega

/-- The kernel's run: the result is `G` of the arguments, the arguments unchanged. -/
theorem run : θ_run defs (onTc (τ := τ) (main (F := Ideal))) ⟨m, fun _ => 0, ρ⟩ fun r => ∀ c : Dev nD,
      r.2.mem ((c.tc : Thread nD τ).loc main_v6) = Spec.G (xM m c) (W1M m c) (b1M m c) (W2M m c) (b2M m c)
      ∧ r.2.mem ((c.tc : Thread nD τ).loc main_arg0) = xM m c
      ∧ r.2.mem ((c.tc : Thread nD τ).loc main_arg1) = W1M m c
      ∧ r.2.mem ((c.tc : Thread nD τ).loc main_arg2) = b1M m c
      ∧ r.2.mem ((c.tc : Thread nD τ).loc main_arg3) = W2M m c
      ∧ r.2.mem ((c.tc : Thread nD τ).loc main_arg4) = b2M m c :=
  (θ_run defs _ _).mono (fun r h c => ⟨(h c).1.trans
      ((dats m 0 c).arrAt_eq_of_cover 5 _ (fun t _ => flushed_eq m c t) covered), (h c).2⟩)
    (Cert.KernelIdeal.Value.run_blocks m ρ)

end Cert.KernelIdeal.KValue

end
-- ==== Proof.RRun.lean ====
import proofs.«142409_j54039278518768_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 31 host operations, in order. -/
abbrev ops : List (HloOp τ sig (Elt F)) :=
  [
    nullary main_c (fun i => lit0 (S2016.rowMajor i)),
    nullary main_c_0 (constantI S2016 1 0#1),
    nullary main_c_1 (fun i => lit1 (S2016.rowMajor i)),
    nullary main_c_2 (constantI S2016 1 0#1),
    unary main_arg1 main_v0 (transpose S64x128 [1, 0] · transposes_S128x64_S64x128_1_0),
    binary main_arg0 main_v0 main_v1 (Host.dotGeneral dot_S16384x64_S64x128_S16384x128_1_0_0_1_n_n none),
    unary main_arg2 main_v2 (broadcastInDim S1x128 ![1] bcast_S128_S1x128_1),
    unary main_v2 main_v3 (broadcastInDim S16384x128 ![0, 1] bcast_S1x128_S16384x128_0_1),
    binary main_v1 main_v3 main_v4 addf,
    unary main_v4 main_v5 Host.tanh,
    unary main_arg3 main_v6 (transpose S128x2016 [1, 0] · transposes_S2016x128_S128x2016_1_0),
    binary main_v5 main_v6 main_v7 (Host.dotGeneral dot_S16384x128_S128x2016_S16384x2016_1_0_0_1_n_n none),
    unary main_arg4 main_v8 (broadcastInDim S1x2016 ![1] bcast_S2016_S1x2016_1),
    unary main_v8 main_v9 (broadcastInDim S16384x2016 ![0, 1] bcast_S1x2016_S16384x2016_0_1),
    binary main_v7 main_v9 main_v10 addf,
    nullary main_cst (constant S_ .f32 0x00000000#32),
    unary main_cst main_v11 (broadcastInDim S16384x64x64 ![] bcast_S_S16384x64x64),
    nullary main_c_3 (constantI S_ 32 64#32),
    unary main_c_3 main_v12 (broadcastInDim S2016 ![] bcast_S_S2016),
    binary main_c main_v12 main_v13 addi,
    ternary main_c_0 main_v13 main_c main_v14 select,
    nullary main_c_4 (constantI S_ 32 64#32),
    unary main_c_4 main_v15 (broadcastInDim S2016 ![] bcast_S_S2016),
    binary main_c_1 main_v15 main_v16 addi,
    ternary main_c_2 main_v16 main_c_1 main_v17 select,
    unary main_v14 main_v18 (broadcastInDim S2016x1 ![0] bcast_S2016_S2016x1_0),
    unary main_v17 main_v19 (broadcastInDim S2016x1 ![0] bcast_S2016_S2016x1_0),
    binary main_v18 main_v19 main_v20 (fun a b => concatenate S2016x2 1 [⟨S2016x1, a⟩, ⟨S2016x1, b⟩] concatenates_S2016x1_S2016x1_S2016x2_d1),
    ternary main_v11 main_v20 main_v10 main_v21 (Host.scatter scatter_S16384x64x64_S2016x2_S16384x2016_0_12_12_1 fun _ b => b),
    unary main_v21 main_v22 (transpose S16384x64x64 [0, 2, 1] · transposes_S16384x64x64_S16384x64x64_0_2_1),
    binary main_v21 main_v22 main_v23 subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., unary_bufs_sub .., binary_bufs_sub ..⟩

macro "results_rw" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

/-- The perceptron's outputs `tanh (x · W1ᵀ + b1) · W2ᵀ + b2`. -/
def params (x : FVec F S16384x64 .f32) (W1 : FVec F S128x64 .f32) (b1 : FVec F S128 .f32) (W2 : FVec F S2016x128 .f32)
    (b2 : FVec F S2016 .f32) : FVec F S16384x2016 .f32 :=
  addf (Host.dotGeneral dot_S16384x128_S128x2016_S16384x2016_1_0_0_1_n_n none
      (Host.tanh (addf (Host.dotGeneral dot_S16384x64_S64x128_S16384x128_1_0_0_1_n_n none x (transpose S64x128 [1, 0] W1 transposes_S128x64_S64x128_1_0))
        (broadcastInDim S16384x128 ![0, 1] bcast_S1x128_S16384x128_0_1 (broadcastInDim S1x128 ![1] bcast_S128_S1x128_1 b1))))
      (transpose S128x2016 [1, 0] W2 transposes_S2016x128_S128x2016_1_0))
    (broadcastInDim S16384x2016 ![0, 1] bcast_S1x2016_S16384x2016_0_1 (broadcastInDim S1x2016 ![1] bcast_S2016_S1x2016_1 b2))

def rowIdx : IVec S2016 32 :=
  select (constantI S2016 1 0#1) (addi (fun i => lit0 (S2016.rowMajor i)) (broadcastInDim S2016 ![] bcast_S_S2016 (constantI S_ 32 64#32)))
    (fun i => lit0 (S2016.rowMajor i))

def colIdx : IVec S2016 32 :=
  select (constantI S2016 1 0#1) (addi (fun i => lit1 (S2016.rowMajor i)) (broadcastInDim S2016 ![] bcast_S_S2016 (constantI S_ 32 64#32)))
    (fun i => lit1 (S2016.rowMajor i))

/-- The index pairs `[2016, 2]`: each strictly-upper position's row index beside its column index. -/
def pairs : IVec S2016x2 32 :=
  concatenate S2016x2 1 [⟨S2016x1, broadcastInDim S2016x1 ![0] bcast_S2016_S2016x1_0 rowIdx⟩, ⟨S2016x1, broadcastInDim S2016x1 ![0] bcast_S2016_S2016x1_0 colIdx⟩]
    concatenates_S2016x1_S2016x1_S2016x2_d1

/-- The zero array with `P[r, k]` written at `(r, row k, col k)`. -/
def scattered (P : FVec F S16384x2016 .f32) : FVec F S16384x64x64 .f32 :=
  Host.scatter scatter_S16384x64x64_S2016x2_S16384x2016_0_12_12_1 (fun _ b => b)
    (broadcastInDim S16384x64x64 ![] bcast_S_S16384x64x64 (constant S_ .f32 0x00000000#32)) pairs P

/-- The scattered array minus its transpose on the last two axes. -/
def result (x : FVec F S16384x64 .f32) (W1 : FVec F S128x64 .f32) (b1 : FVec F S128 .f32) (W2 : FVec F S2016x128 .f32)
    (b2 : FVec F S2016 .f32) : FVec F S16384x64x64 .f32 :=
  subf (scattered (params x W1 b1 W2 b2))
    (transpose S16384x64x64 [0, 2, 1] (scattered (params x W1 b1 W2 b2)) transposes_S16384x64x64_S16384x64x64_0_2_1)

set_option maxHeartbeats 2000000 in

/-- Every weakly fair execution of @main ends with `result` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v23).trans (by unfold result scattered pairs rowIdx colIdx params; after_results_simp; results_rw; rfl),
      (h c main_arg0).trans (by after_results),
      (h c main_arg1).trans (by after_results),
      (h c main_arg2).trans (by after_results),
      (h c main_arg3).trans (by after_results),
      (h c main_arg4).trans (by after_results)⟩)
    (run_seq scopedRefs_eq scopedSems_eq defs main (fun _ => ops) main_eq (fun _ => ops_sub) m ρ)

end Cert.ReferenceIdeal.RefRun

end
-- ==== Proof.RParams.lean ====
import proofs.«142409_j54039278518768_1_alg».proof.Proof.RRun
import proofs.«142409_j54039278518768_1_alg».proof.Proof.Spec
import Idealize.ShloMosaic.Lib.StackMember
import Idealize.ShloMosaic.Lib.ValueLayout
import Idealize.ShloMosaic.PureOps.Ideal.Laws

noncomputable section

namespace Cert.ReferenceIdeal.RParams

open Cert.ReferenceIdeal Cert.ReferenceIdeal.Gen Idealize.ShloMosaic Idealize.ShloMosaic.TcCoe Idealize.ShloMosaic.ValueIdx Idealize.SL.Sem

/-- A vector `[n]` broadcast to a row and then down `m` rows reads, at `(r, h)`, its entry `h`. -/
theorem bias_apply {m n : Nat} (b : (⟨1, ![n]⟩ : Shape).Idx → EReal)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2)) (r : Fin m) (h : Fin n) :
    broadcastInDim ⟨2, ![m, n]⟩ ![0, 1] h2 (broadcastInDim ⟨2, ![1, n]⟩ ![1] h1 b) (ix2 r h) = b (ix1 h) := by
  have hn : h.val = if n = 1 then 0 else h.val := by have := h.isLt; split <;> omega
  refine (broadcastInDim_apply _ h2 _ _ (ix2 0 h) fun a => ?_).trans (broadcastInDim_apply _ h1 _ _ (ix1 h) fun a => ?_)
  · match a with
    | ⟨0, _⟩ => rfl
    | ⟨1, _⟩ => exact hn
  · match a with
    | ⟨0, _⟩ => exact hn

/-- The reference's `params` at `(r, k)` is the perceptron on row `r` of `x`. -/
theorem params_apply (x : FVec Ideal S16384x64 .f32) (W1 : FVec Ideal S128x64 .f32) (b1 : FVec Ideal S128 .f32)
    (W2 : FVec Ideal S2016x128 .f32) (b2 : FVec Ideal S2016 .f32) (r : Fin 16384) (k : Fin 2016) :
    RefRun.params (F := Ideal) x W1 b1 W2 b2 (ix2 r k)
      = Spec.mlp (fun e => x (ix2 r e)) (fun h e => W1 (ix2 h e)) (fun h => b1 (ix1 h)) (fun k h => W2 (ix2 k h))
          (fun k => b2 (ix1 k)) k := by
  unfold RefRun.params Spec.mlp
  rw [addf_apply]
  refine congrArg₂ (· + ·) ((StackMember.dotGeneral_plain_apply none _ _ r k).trans
    (Finset.sum_congr rfl fun h _ => congrArg₂ (· * ·) ?_ (transpose_ix2_apply W2 _ h k))) (bias_apply b2 _ _ r k)
  show FloatOps.hostUnary .tanh (addf _ _ (ix2 r h)) = _
  rw [Ideal.hostUnary_tanh_def, addf_apply]
  refine congrArg Ideal.tanh (congrArg₂ (· + ·) ((StackMember.dotGeneral_plain_apply none _ _ r h).trans ?_)
    (bias_apply b1 _ _ r h))
  exact Finset.sum_congr rfl fun e _ => congrArg (x (ix2 r e) * ·) (transpose_ix2_apply W1 _ e h)

end Cert.ReferenceIdeal.RParams

end
-- ==== Proof.LibScatterSet.lean ====
import Idealize.ShloMosaic.PureOps.Ideal
import Idealize.ShloMosaic.Lib.ValueIdx

noncomputable section

namespace Cert.LibScatterSet

open Idealize.ShloMosaic Idealize.ShloMosaic.ValueIdx

section Fold
variable {α : Type} {s si u : Shape} {w : Nat} (d : ScatterDims s si u) (f : α → α → α) (x : s.Idx → α)
  (idx : IVec si w) (upd : u.Idx → α) (i : s.Idx)

/-- One step of the scatter's fold over the updates: update `n` is combined into the element it lands on, if any. -/
def step (r : s.Idx → α) (n : Fin u.numel) : s.Idx → α :=
  match d.resultIdx? (u.rowMajor.symm n) idx with
  | some i => fun i' => if i' = i then f (r i) (upd (u.rowMajor.symm n)) else r i'
  | none => r

theorem foldl_step_of_miss : ∀ (l : List (Fin u.numel)) (r : s.Idx → α),
    (∀ n ∈ l, d.resultIdx? (u.rowMajor.symm n) idx ≠ some i) → (l.foldl (step d f idx upd) r) i = r i
  | [], _, _ => rfl
  | a :: l, r, h => by
    rw [List.foldl_cons, foldl_step_of_miss l _ fun n hn => h n (List.mem_cons_of_mem _ hn)]
    have ha := h a List.mem_cons_self
    unfold step
    cases hres : d.resultIdx? (u.rowMajor.symm a) idx with
    | none => rfl
    | some i0 => exact if_neg fun e => ha (by rw [hres, e])

/-- An element no update lands on keeps the operand's value. -/
theorem scatter_of_miss (h : ∀ j, d.resultIdx? j idx ≠ some i) : Host.scatter d f x idx upd i = x i :=
  foldl_step_of_miss d f idx upd i _ x fun n _ => h _

/-- An element exactly one update lands on ends at that update's value, when the combiner returns the update. -/
theorem scatter_set_of_unique (j : u.Idx) (hj : d.resultIdx? j idx = some i)
    (huniq : ∀ j', d.resultIdx? j' idx = some i → j' = j) : Host.scatter d (fun _ b => b) x idx upd i = upd j := by
  obtain ⟨l1, l2, hl⟩ := List.append_of_mem (List.mem_finRange (u.rowMajor j))
  have hnd : (List.finRange u.numel).Nodup := List.nodup_finRange _
  show (List.finRange u.numel).foldl (step d (fun _ b => b) idx upd) x i = _
  rw [hl, List.foldl_append, List.foldl_cons, foldl_step_of_miss d _ idx upd i l2 _ ?_]
  · unfold step
    rw [Equiv.symm_apply_apply, hj]
    exact if_pos rfl
  · intro n hn hres
    rw [hl] at hnd
    exact (List.nodup_cons.mp (List.nodup_append.mp hnd).2.1).1
      ((show n = u.rowMajor j by rw [← huniq _ hres, Equiv.apply_symm_apply]) ▸ hn)

/-- An update lands at `i` exactly when, on every axis, its start plus its window coordinate is `i`'s coordinate. -/
theorem resultIdx?_eq_some_iff (j : u.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) :=
      fun a => by have h1 := h a; have h2 := (i a).isLt; constructor <;> omega
    rw [dif_pos hall]
    congr 1
    funext a
    apply Fin.ext
    show (d.start j idx a + (d.window j a : ℤ)).toNat = (i a).val
    have h1 := h a
    omega

end Fold

section Pairs
variable {B N M K w : Nat} (wf : ScatterDims.WF ⟨3, ![B, N, M]⟩ ⟨2, ![K, 2]⟩ ⟨2, ![B, K]⟩ [0] [1, 2] [1, 2] 1)
  (idx : IVec ⟨2, ![K, 2]⟩ w) (j : (⟨2, ![B, K]⟩ : Shape).Idx)

/-- `[B, N, M]` scattered on its last two axes by `K` index pairs, the leading axis carried by the updates `[B, K]`. -/
abbrev D : ScatterDims ⟨3, ![B, N, M]⟩ ⟨2, ![K, 2]⟩ ⟨2, ![B, K]⟩ := ⟨[0], [1, 2], [1, 2], 1, wf⟩

theorem mem_sKept_iff (a : Fin 3) : a ∈ (D wf).sKept ↔ a ∉ [(1 : Fin 3), 2] := by
  simp [ScatterDims.sKept, Shape.kept, List.mem_filter, List.mem_finRange]

/-- On a scattered axis the start is the signed value of the pair's word for it. -/
theorem start_pos (a : Fin 3) (c : Fin 2) (ha : a ∈ [(1 : Fin 3), 2]) (hc : [(1 : Fin 3), 2].idxOf a = c.val) :
    (D wf).start j idx a = (idx (ix2 (j 1) c)).toInt := by
  unfold ScatterDims.start
  rw [dif_pos ha]
  congr 2
  funext b
  apply Fin.ext
  match b with
  | ⟨0, _⟩ => rfl
  | ⟨1, _⟩ => exact hc

/-- Update `(b, k)` lands at `(b', p, q)` exactly when `b = b'` and index pair `k`, read signed, is `(p, q)`. -/
theorem resultIdx_eq_some_iff (i : (⟨3, ![B, N, M]⟩ : Shape).Idx) :
    (D wf).resultIdx? j idx = some i ↔
      (j 0).val = (i 0).val ∧ (idx (ix2 (j 1) ⟨0, by decide⟩)).toInt = ((i 1).val : ℤ)
        ∧ (idx (ix2 (j 1) ⟨1, by decide⟩)).toInt = ((i 2).val : ℤ) := by
  have s0 : (D wf).start j idx 0 = 0 := by
    unfold ScatterDims.start; exact dif_neg (show (0 : Fin 3) ∉ [(1 : Fin 3), 2] by decide)
  have s1 := start_pos wf idx j 1 ⟨0, by decide⟩ (by decide) rfl
  have s2 := start_pos wf idx j 2 ⟨1, by decide⟩ (by decide) rfl
  have w0 : (D wf).window j 0 = (j 0).val := by
    unfold ScatterDims.window; rw [dif_pos ((mem_sKept_iff wf 0).mpr (by decide))]; rfl
  have w1 : (D wf).window j 1 = 0 := by
    unfold ScatterDims.window; exact dif_neg fun h => (mem_sKept_iff wf 1).mp h (by decide)
  have w2 : (D wf).window j 2 = 0 := by
    unfold ScatterDims.window; exact dif_neg fun h => (mem_sKept_iff wf 2).mp h (by decide)
  rw [resultIdx?_eq_some_iff]
  constructor
  · intro h
    have h0 := h 0
    have h1 := h 1
    have h2 := h 2
    rw [s0, w0] at h0
    rw [s1, w1] at h1
    rw [s2, w2] at h2
    exact ⟨by omega, by simpa using h1, by simpa using h2⟩
  · rintro ⟨h0, h1, h2⟩ a
    match a with
    | ⟨0, _⟩ =>
      show (D wf).start j idx 0 + ((D wf).window j 0 : ℤ) = ((i 0).val : ℤ)
      rw [s0, w0]; omega
    | ⟨1, _⟩ => show (D wf).start j idx 1 + ((D wf).window j 1 : ℤ) = _; rw [s1, w1]; simpa using h1
    | ⟨2, _⟩ => show (D wf).start j idx 2 + ((D wf).window j 2 : ℤ) = _; rw [s2, w2]; simpa using h2

end Pairs

end Cert.LibScatterSet

end
-- ==== Proof.RScatter.lean ====
import proofs.«142409_j54039278518768_1_alg».proof.Proof.RRun
import proofs.«142409_j54039278518768_1_alg».proof.Proof.Spec
import proofs.«142409_j54039278518768_1_alg».proof.Proof.LibScatterSet
import Idealize.ShloMosaic.Lib.StableHlo.Predicate
import Idealize.ShloMosaic.Lib.Pipeline.Value
import Idealize.ShloMosaic.Lib.ValueLayout
import Idealize.ShloMosaic.PureOps.Ideal.Laws

noncomputable section

namespace Cert.ReferenceIdeal.RScatter

open Cert.ReferenceIdeal Cert.ReferenceIdeal.Gen Idealize.ShloMosaic Idealize.ShloMosaic.TcCoe Idealize.ShloMosaic.ValueIdx Idealize.SL.Sem

theorem rowMajor_ix1 (k : Fin 2016) : S2016.rowMajor (ix1 k) = k :=
  Fin.ext (Shape.rowMajor_val_one (d := ![2016]) (ix1 k))

theorem rowIdx_apply (k : Fin 2016) : RefRun.rowIdx (ix1 k) = lit0 k := by
  unfold RefRun.rowIdx
  rw [select_apply, constantI_apply, select_zero, rowMajor_ix1]

theorem colIdx_apply (k : Fin 2016) : RefRun.colIdx (ix1 k) = lit1 k := by
  unfold RefRun.colIdx
  rw [select_apply, constantI_apply, select_zero, rowMajor_ix1]

theorem pairs_row (k : Fin 2016) : RefRun.pairs (ix2 k (⟨0, by decide⟩ : Fin 2)) = lit0 k := by
  unfold RefRun.pairs
  refine (concatenate_pair_apply_left (t := S2016x2) (s₁ := S2016x1) (s₂ := S2016x1) (1 : Fin 2) _ _
    concatenates_S2016x1_S2016x1_S2016x2_d1 (ix2 k (⟨0, by decide⟩ : Fin 2)) rfl
    (ix2 k (⟨0, by decide⟩ : Fin 1)) (fun b => by match b with | ⟨0, _⟩ => rfl | ⟨1, _⟩ => rfl)).trans ?_
  refine (broadcastInDim_apply (s := S2016) (t := S2016x1) ![0] bcast_S2016_S2016x1_0 RefRun.rowIdx
    (ix2 k (⟨0, by decide⟩ : Fin 1)) (ix1 k) (fun a => by match a with | ⟨0, _⟩ => rfl)).trans ?_
  exact rowIdx_apply k

theorem pairs_col (k : Fin 2016) : RefRun.pairs (ix2 k (⟨1, by decide⟩ : Fin 2)) = lit1 k := by
  unfold RefRun.pairs
  refine (concatenate_pair_apply_right (t := S2016x2) (s₁ := S2016x1) (s₂ := S2016x1) (1 : Fin 2) _ _
    concatenates_S2016x1_S2016x1_S2016x2_d1 (ix2 k (⟨1, by decide⟩ : Fin 2)) rfl rfl
    (ix2 k (⟨0, by decide⟩ : Fin 1))
    (fun b hb => by match b with | ⟨0, _⟩ => rfl | ⟨1, _⟩ => exact absurd rfl hb) rfl).trans ?_
  refine (broadcastInDim_apply (s := S2016) (t := S2016x1) ![0] bcast_S2016_S2016x1_0 RefRun.colIdx
    (ix2 k (⟨0, by decide⟩ : Fin 1)) (ix1 k) (fun a => by match a with | ⟨0, _⟩ => rfl)).trans ?_
  exact colIdx_apply k

set_option maxHeartbeats 4000000 in
/-- Every table entry `k` is a pair `(a, c)` with `a < c < 64` whose place in the row-by-row list is `k`, -/
theorem tab_fwd : ∀ k : Fin 2016, (lit0t k.val).toNat < (lit1t k.val).toNat ∧ (lit1t k.val).toNat < 64
    ∧ Spec.kk (lit0t k.val).toNat (lit1t k.val).toNat = k.val := by decide +kernel

set_option maxHeartbeats 4000000 in
/-- and the entry at the place of `(i, j)`, `i < j`, is `(i, j)`: each strictly-upper position is listed exactly once. -/
theorem tab_inv : ∀ i j : Fin 64, i.val < j.val →
    (lit0t (Spec.kk i.val j.val)).toNat = i.val ∧ (lit1t (Spec.kk i.val j.val)).toNat = j.val := by decide +kernel

theorem toInt_of_lt (x : BitVec 32) (h : x.toNat < 64) : x.toInt = (x.toNat : ℤ) :=
  BitVec.toInt_eq_toNat_of_lt (by omega)

/-- Update `(b', k)` lands at `(b, i, j)` exactly when `b' = b` and table entry `k`, read signed, is `(i, j)`. -/
theorem lands_iff (b' b : Fin 16384) (k : Fin 2016) (i j : Fin 64) :
    scatter_S16384x64x64_S2016x2_S16384x2016_0_12_12_1.resultIdx? (ix2 b' k) RefRun.pairs = some (ix3 b i j)
      ↔ b'.val = b.val ∧ (lit0 k).toInt = (i.val : ℤ) ∧ (lit1 k).toInt = (j.val : ℤ) := by
  rw [← pairs_row k, ← pairs_col k]
  exact Cert.LibScatterSet.resultIdx_eq_some_iff scatter_S16384x64x64_S2016x2_S16384x2016_0_12_12_1.wf RefRun.pairs
    (ix2 b' k) (ix3 b i j)

theorem of_lands (b' b : Fin 16384) (k : Fin 2016) (i j : Fin 64)
    (h : scatter_S16384x64x64_S2016x2_S16384x2016_0_12_12_1.resultIdx? (ix2 b' k) RefRun.pairs = some (ix3 b i j)) :
    b' = b ∧ i.val < j.val ∧ k.val = Spec.kk i.val j.val := by
  obtain ⟨h0, h1, h2⟩ := (lands_iff b' b k i j).mp h
  obtain ⟨t0, t1, t2⟩ := tab_fwd k
  have c0 : (lit0 k).toNat < 64 := Nat.lt_trans t0 t1
  have c1 : (lit1 k).toNat < 64 := t1
  rw [toInt_of_lt _ c0] at h1
  rw [toInt_of_lt _ c1] at h2
  have a0 : (lit0t k.val).toNat = i.val := by exact_mod_cast h1
  have a1 : (lit1t k.val).toNat = j.val := by exact_mod_cast h2
  rw [a0, a1] at t2
  rw [a0, a1] at t0
  exact ⟨Fin.ext h0, t0, t2.symm⟩

/-- The scattered array holds `P[b, κ i j]` above the diagonal and zero on and below it. -/
theorem scattered_apply (P : FVec Ideal S16384x2016 .f32) (b : Fin 16384) (i j : Fin 64) :
    RefRun.scattered (F := Ideal) P (ix3 b i j)
      = if h : i.val < j.val then P (ix2 b ⟨Spec.kk i.val j.val, Spec.kk_lt h j.isLt⟩) else 0 := by
  unfold RefRun.scattered
  by_cases h : i.val < j.val
  · rw [dif_pos h]
    obtain ⟨v0, v1⟩ := tab_inv i j h
    have c0 : (lit0t (Spec.kk i.val j.val)).toNat < 64 := by rw [v0]; exact i.isLt
    have c1 : (lit1t (Spec.kk i.val j.val)).toNat < 64 := by rw [v1]; exact j.isLt
    refine Cert.LibScatterSet.scatter_set_of_unique _ _ _ P (ix3 b i j)
      (ix2 b ⟨Spec.kk i.val j.val, Spec.kk_lt h j.isLt⟩) ?_ ?_
    · refine (lands_iff b b ⟨Spec.kk i.val j.val, Spec.kk_lt h j.isLt⟩ i j).mpr ⟨rfl, ?_, ?_⟩
      · show (lit0t (Spec.kk i.val j.val)).toInt = (i.val : ℤ)
        rw [toInt_of_lt _ c0, v0]
      · show (lit1t (Spec.kk i.val j.val)).toInt = (j.val : ℤ)
        rw [toInt_of_lt _ c1, v1]
    · intro j' hj'
      obtain ⟨b', k, rfl⟩ : ∃ (b' : Fin 16384) (k : Fin 2016), j' = ix2 b' k := ⟨j' 0, j' 1, eq_ix2 j'⟩
      obtain ⟨hb, _, hk⟩ := of_lands b' b k i j hj'
      subst hb
      have : k = ⟨Spec.kk i.val j.val, Spec.kk_lt h j.isLt⟩ := Fin.ext hk
      rw [this]
  · rw [dif_neg h]
    rw [Cert.LibScatterSet.scatter_of_miss _ _ _ RefRun.pairs P (ix3 b i j) ?_]
    · rw [broadcastInDim_apply (s := S_) (t := S16384x64x64) ![] bcast_S_S16384x64x64 _ (ix3 b i j) ix0
        (fun a => a.elim0), constant_apply, Ideal.ofBits_zero_f32]
    · intro j' hj'
      obtain ⟨b', k, rfl⟩ : ∃ (b' : Fin 16384) (k : Fin 2016), j' = ix2 b' k := ⟨j' 0, j' 1, eq_ix2 j'⟩
      exact h (of_lands b' b k i j hj').2.1

end Cert.ReferenceIdeal.RScatter

end
-- ==== Proof.RValue.lean ====
import proofs.«142409_j54039278518768_1_alg».proof.Proof.RParams
import proofs.«142409_j54039278518768_1_alg».proof.Proof.RScatter

noncomputable section

namespace Cert.ReferenceIdeal.RValue

open Cert.ReferenceIdeal Cert.ReferenceIdeal.Gen Idealize.ShloMosaic Idealize.ShloMosaic.TcCoe Idealize.ShloMosaic.ValueIdx Idealize.SL.Sem

/-- `S - Sᵀ` is `p - 0` above the diagonal, `0 - p` below it, `0 - 0` on it; `x - 0 = x` on every extended real. -/
theorem result_eq (x : FVec Ideal S16384x64 .f32) (W1 : FVec Ideal S128x64 .f32) (b1 : FVec Ideal S128 .f32)
    (W2 : FVec Ideal S2016x128 .f32) (b2 : FVec Ideal S2016 .f32) :
    RefRun.result (F := Ideal) x W1 b1 W2 b2 = Spec.G x W1 b1 W2 b2 := by
  funext y
  obtain ⟨b, i, j, rfl⟩ : ∃ (b : Fin 16384) (i j : Fin 64), y = ix3 b i j := ⟨y 0, y 1, y 2, eq_ix3 y⟩
  unfold RefRun.result Spec.G
  rw [subf_apply, transpose_ix3_021_apply, RScatter.scattered_apply, RScatter.scattered_apply]
  rcases Nat.lt_trichotomy i.val j.val with h | h | h
  · rw [dif_pos h, dif_neg (by omega), Spec.skew_of_lt _ (ix3 b i j) h, RParams.params_apply]
    exact sub_zero _
  · rw [dif_neg (by omega), dif_neg (by omega), Spec.skew_of_eq _ (ix3 b i j) h]
    exact sub_zero _
  · rw [dif_neg (by omega), dif_pos h, Spec.skew_of_gt _ (ix3 b i j) h, RParams.params_apply]

end Cert.ReferenceIdeal.RValue

end
-- ==== Proof.lean ====
/-
  A two-layer perceptron gives each row of `x` the `2016 = 64 · 63 / 2` strictly-upper entries of a `64 × 64` matrix,
  listed row by row; both programs return the skew-symmetric matrix with those entries (`Spec.G`): the kernel by
  126 rectangular stores over zeros, the reference as `S - Sᵀ` of a scattered array `S`.
-/
import proofs.«142409_j54039278518768_1_alg».proof.Defs
import proofs.«142409_j54039278518768_1_alg».proof.Proof.Gen.Kernel
import proofs.«142409_j54039278518768_1_alg».proof.Proof.Gen.Kernel.Frame
import proofs.«142409_j54039278518768_1_alg».proof.Proof.Gen.KernelIdeal
import proofs.«142409_j54039278518768_1_alg».proof.Proof.Gen.ReferenceIdeal
import proofs.«142409_j54039278518768_1_alg».proof.Proof.Gen.Pre_finite_inputs
import proofs.«142409_j54039278518768_1_alg».proof.Proof.KValue
import proofs.«142409_j54039278518768_1_alg».proof.Proof.RValue

noncomputable section

namespace Cert.Proof

open Idealize.ShloMosaic Idealize.SL.Sem

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end with `Spec.G` of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RValue.result_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts,
  Cert.Pre_finite_inputs.Gen.facts, fun m ρ _ => Cert.Kernel.Gen.frame m ρ, fun m ρ _ => Cert.KernelIdeal.Gen.frame m ρ,
  frame_ri, trivial, algebraic⟩

end Cert.Proof

end
